-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg14 : FVec F S128x10 .f32) (main_arg15 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x10 .f32 := Host.absf main_arg14
  let main_cst_20 : FVec F S_ .f32 := constant S_ .f32 0x7F800000#32
  let main_v55 : FVec F S128x10 .f32 := broadcastInDim S128x10 ![] bcast_S_S128x10 main_cst_20
  let main_v56 : IVec S128x10 1 := cmpf .olt main_v54 main_v55
  let main_c_21 : IVec S_ 1 := constantI S_ 1 1#1
  let main_v57 : IVec S_ 1 := (fun x v => Host.reduce IntOp.andi x v reducesTo_S128x10_S_d0_1 h_S_) main_v56 main_c_21
  let main_v58 : IVec S_ 1 := andi main_v53 main_v57
  let main_v59 : FVec F S10 .f32 := Host.absf main_arg15
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg10 : FVec F S128x128 .f32) (main_arg11 : FVec F S128 .f32) (main_arg12 : FVec F S128x128 .f32) (main_arg13 : FVec F S128 .f32) (main_arg14 : FVec F S128x10 .f32) (main_arg15 : FVec F S10 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg13
  let main_cst_18 : FVec F S_ .f32 := constant S_ .f32 0x7F800000#32
  let main_v50 : FVec F S128 .f32 := broadcastInDim S128 ![] bcast_S_S128 main_cst_18
  fn_part3 (F := F) main_arg14 main_arg15 main_v48 main_v49 main_v50

def fn_part1 {F : FTy → Type} [FloatOps F] (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x10 .f32) (main_arg15 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S100000x128 .f32) (main_arg1 : IVec S1600000 32) (main_arg2 : IVec S1600000 32) (main_arg3 : IVec S100000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x10 .f32) (main_arg15 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_arg15 main_v13 main_v16
-- ==== Kernel.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S1600000x1 : Shape := ⟨2, ![1600000, 1]⟩
abbrev S100000x1 : Shape := ⟨2, ![100000, 1]⟩
abbrev S5000x128 : Shape := ⟨2, ![5000, 128]⟩
abbrev S1x128 : Shape := ⟨2, ![1, 128]⟩
abbrev S1600000x128 : Shape := ⟨2, ![1600000, 128]⟩
abbrev S5000x1 : Shape := ⟨2, ![5000, 1]⟩
abbrev S512x10 : Shape := ⟨2, ![512, 10]⟩
abbrev S512x128 : Shape := ⟨2, ![512, 128]⟩
abbrev S5000x512 : Shape := ⟨2, ![5000, 512]⟩
abbrev S1x10 : Shape := ⟨2, ![1, 10]⟩

abbrev nBuf : Space → Nat
  | .hbm => 106
  | .vmem => 61
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x10, .f32⟩
  | .hbm, ⟨15, _⟩ => ⟨S10, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S128, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000, .f32⟩
  | .hbm, ⟨46, _⟩ => ⟨S1600000, .f32⟩
  | .hbm, ⟨47, _⟩ => ⟨S100000, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S1600000x1, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .f32⟩
  | .hbm, ⟨78, _⟩ => ⟨S1600000x1, .f32⟩
  | .hbm, ⟨79, _⟩ => ⟨S1600000x128, .f32⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S100000x128, .f32⟩
  | .hbm, ⟨86, _⟩ => ⟨S100000x128, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x128, .f32⟩
  | .hbm, ⟨96, _⟩ => ⟨S1600000x1, .f32⟩
  | .hbm, ⟨97, _⟩ => ⟨S1600000x128, .f32⟩
  | .hbm, ⟨98, _⟩ => ⟨S1600000x128, .f32⟩
  | .hbm, ⟨99, _⟩ => ⟨S_, .f32⟩
  | .hbm, ⟨100, _⟩ => ⟨S100000x128, .f32⟩
  | .hbm, ⟨101, _⟩ => ⟨S1600000x1, .i32⟩
  | .hbm, ⟨102, _⟩ => ⟨S100000x128, .f32⟩
  | .hbm, ⟨103, _⟩ => ⟨S100000x128, .f32⟩
  | .hbm, ⟨104, _⟩ => ⟨S100000x1, .i32⟩
  | .hbm, ⟨105, _⟩ => ⟨S512x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x1, .f32⟩
  | .local _ .vmem, ⟨32, _⟩ => ⟨S5000x1, .f32⟩
  | .local _ .vmem, ⟨33, _⟩ => ⟨S128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x1, .f32⟩
  | .local _ .vmem, ⟨47, _⟩ => ⟨S5000x1, .f32⟩
  | .local _ .vmem, ⟨48, _⟩ => ⟨S128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x1, .i32⟩
  | .local _ .vmem, ⟨54, _⟩ => ⟨S5000x1, .i32⟩
  | .local _ .vmem, ⟨55, _⟩ => ⟨S128x128, .f32⟩
  | .local _ .vmem, ⟨56, _⟩ => ⟨S128, .f32⟩
  | .local _ .vmem, ⟨57, _⟩ => ⟨S128x10, .f32⟩
  | .local _ .vmem, ⟨58, _⟩ => ⟨S10, .f32⟩
  | .local _ .vmem, ⟨59, _⟩ => ⟨S512x10, .f32⟩
  | .local _ .vmem, ⟨60, _⟩ => ⟨S512x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_cst_1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_c_3 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_4 : Ref sig .tc := ⟨.hbm, 37, rfl⟩
abbrev main_v15 : Ref sig .tc := ⟨.hbm, 38, rfl⟩
abbrev main_v16 : Ref sig .tc := ⟨.hbm, 39, rfl⟩
abbrev main_c_5 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_6 : Ref sig .tc := ⟨.hbm, 51, rfl⟩
abbrev main_v27 : Ref sig .tc := ⟨.hbm, 52, rfl⟩
abbrev main_v28 : Ref sig .tc := ⟨.hbm, 53, rfl⟩
abbrev main_c_7 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_9 : Ref sig .tc := ⟨.hbm, 69, rfl⟩
abbrev main_v42 : Ref sig .tc := ⟨.hbm, 70, rfl⟩
abbrev main_v43 : Ref sig .tc := ⟨.hbm, 71, rfl⟩
abbrev main_c_10 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_12 : Ref sig .tc := ⟨.hbm, 87, rfl⟩
abbrev main_v57 : Ref sig .tc := ⟨.hbm, 88, rfl⟩
abbrev main_v58 : Ref sig .tc := ⟨.hbm, 89, rfl⟩
abbrev main_c_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc6_stg3_0 : Ref sig .tc := ⟨.vmem, 48, rfl⟩
abbrev cc6_stg4_0 : Ref sig .tc := ⟨.vmem, 49, rfl⟩
abbrev cc6_stg4_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg1_1 : Ref sig .tc := ⟨.vmem, 54, rfl⟩
abbrev cc7_stg2_0 : Ref sig .tc := ⟨.vmem, 55, rfl⟩
abbrev cc7_stg3_0 : Ref sig .tc := ⟨.vmem, 56, rfl⟩
abbrev cc7_stg4_0 : Ref sig .tc := ⟨.vmem, 57, rfl⟩
abbrev cc7_stg5_0 : Ref sig .tc := ⟨.vmem, 58, rfl⟩
abbrev cc7_stg6_0 : Ref sig .tc := ⟨.vmem, 59, rfl⟩
abbrev cc7_scratch0 : Ref sig .tc := ⟨.vmem, 60, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47
abbrev cc6_sem3_0 : DmaSem sig := 48
abbrev cc6_sem4_0 : DmaSem sig := 49
abbrev cc6_sem4_1 : DmaSem sig := 50
abbrev cc7_sem0_0 : DmaSem sig := 51
abbrev cc7_sem0_1 : DmaSem sig := 52
abbrev cc7_sem1_0 : DmaSem sig := 53
abbrev cc7_sem1_1 : DmaSem sig := 54
abbrev cc7_sem2_0 : DmaSem sig := 55
abbrev cc7_sem3_0 : DmaSem sig := 56
abbrev cc7_sem4_0 : DmaSem sig := 57
abbrev cc7_sem5_0 : DmaSem sig := 58
abbrev cc7_sem6_0 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![20], ![false]⟩

def k7_cond2 (i : grid7.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_8 : BitVec 32 := 0#32
  let v22 : BitVec 1 := Scalar.cmpi .ne v21 c0_i32_8
  v22

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x10 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S10 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S512x10 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

class Facts₀ : Prop where
  bcast_S_S1600000 : S_.BroadcastsInDim S1600000 (![] : Fin 0 → Fin S1600000.rank)
  bcast_S_S128 : S_.BroadcastsInDim S128 (![] : Fin 0 → Fin S128.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S5000x128_S5000x128 : S5000x128.ShapeCasts S5000x128
  shapeCasts_S128_S128 : S128.ShapeCasts S128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  iota_S5000x512_d1_w32 : S5000x512.Iotas .tc 32 [1]
  broadcasts_S5000x1_S5000x512 : S5000x1.Broadcasts S5000x512
  natLt_1_32 : 1 < 32
  broadcasts_S1x128_S512x128 : S1x128.Broadcasts S512x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x512_S5000x128_S512x128_0_0_1_1_n_n_wf : DotDims.WF S5000x512 S5000x128 S512x128 [0] [0] [1] [1] [] []
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128.size a ≤ S128.size a
  hwx6_3 : ∀ i : grid6.Coords, EltTy.bits .f32 = 32 ∨ (Rect.block (s := S128) S128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S100000x128.size a
  hwx6_4 : ∀ i : grid6.Coords, EltTy.bits .f32 = 32 ∨ (Rect.block (s := S100000x128) S5000x128.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S100000x1.size a
  hwx7_1 : ∀ i : grid7.Coords, EltTy.bits .i32 = 32 ∨ (Rect.block (s := S100000x1) S5000x1.size (cc7_transform_1 i) (hinb7_1 i)).WholeWords (EltTy.packing .i32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128.size a ≤ S128.size a
  hwx7_3 : ∀ i : grid7.Coords, EltTy.bits .f32 = 32 ∨ (Rect.block (s := S128) S128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x10.size a ≤ S128x10.size a
  hwx7_4 : ∀ i : grid7.Coords, EltTy.bits .f32 = 32 ∨ (Rect.block (s := S128x10) S128x10.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S10.size a ≤ S10.size a
  hwx7_5 : ∀ i : grid7.Coords, EltTy.bits .f32 = 32 ∨ (Rect.block (s := S10) S10.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S512x10.size a ≤ S512x10.size a
  hwx7_6 : ∀ i : grid7.Coords, EltTy.bits .f32 = 32 ∨ (Rect.block (s := S512x10) S512x10.size (cc7_transform_6 i) (hinb7_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x512_S5000x128_S512x128_0_0_1_1_n_n : DotDims S5000x512 S5000x128 S512x128 where
  lhsContracting := [0]
  rhsContracting := [0]
  lhsNonContracting := [1]
  rhsNonContracting := [1]
  lhsBatch := []
  rhsBatch := []
  wf := dot_S5000x512_S5000x128_S512x128_0_0_1_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v40) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v1) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v54) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v24) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg9) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v55) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v55) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v1) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v56) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v69) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v56) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v24) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_arg11) S128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v70) S5000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v70) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v71) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg12) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg13) S128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg14) S128x10.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg15) S10.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v72) S512x10.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev idle7 : Fin 7 → grid7.Coords → Bool := fun | 0 => fun _ => false | 1 => fun _ => false | 2 => fun _ => false | 3 => fun _ => false | 4 => fun _ => false | 5 => fun _ => false | 6 => fun i => !(k7_cond2 i == 1#1) | ⟨_ + 7, h⟩ => absurd h (Nat.not_lt.2 (Nat.le_add_left _ _))

class Facts : Prop extends Facts₀ where

variable [Facts]
-- ==== ReferenceIdeal.lean ====
abbrev S100000x128 : Shape := ⟨2, ![100000, 128]⟩
abbrev S1600000 : Shape := ⟨1, ![1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S512x128 : Shape := ⟨2, ![512, 128]⟩
abbrev S512x10 : Shape := ⟨2, ![512, 10]⟩
abbrev S1x10 : Shape := ⟨2, ![1, 10]⟩

abbrev nBuf : Space → Nat
  | .hbm => 206
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S100000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x10, .f32⟩
  | 15 => ⟨S10, .f32⟩
  | 16 => ⟨S100000x128, .f32⟩
  | 17 => ⟨S1x128, .f32⟩
  | 18 => ⟨S100000x128, .f32⟩
  | 19 => ⟨S100000x128, .f32⟩
  | 20 => ⟨S100000x128, .f32⟩
  | 21 => ⟨S_, .f32⟩
  | 22 => ⟨S1600000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S1600000x1, .f32⟩
  | 60 => ⟨S1600000x128, .f32⟩
  | 61 => ⟨S1600000x128, .f32⟩
  | 62 => ⟨S_, .f32⟩
  | 63 => ⟨S100000x128, .f32⟩
  | 64 => ⟨S1600000x1, .i32⟩
  | 65 => ⟨S100000x128, .f32⟩
  | 66 => ⟨S100000, .f32⟩
  | 67 => ⟨S100000x1, .f32⟩
  | 68 => ⟨S100000x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S_, .f32⟩
  | 79 => ⟨S1600000, .f32⟩
  | 80 => ⟨S_, .f32⟩
  | 81 => ⟨S100000, .f32⟩
  | 82 => ⟨S1600000x1, .i32⟩
  | 83 => ⟨S100000, .f32⟩
  | 84 => ⟨S_, .f32⟩
  | 85 => ⟨S100000, .f32⟩
  | 86 => ⟨S100000, .f32⟩
  | 87 => ⟨S100000, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000, .f32⟩
  | 106 => ⟨S1600000, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x128, .f32⟩
  | 116 => ⟨S1600000x1, .f32⟩
  | 117 => ⟨S1600000x128, .f32⟩
  | 118 => ⟨S1600000x128, .f32⟩
  | 119 => ⟨S_, .f32⟩
  | 120 => ⟨S100000x128, .f32⟩
  | 121 => ⟨S1600000x1, .i32⟩
  | 122 => ⟨S100000x128, .f32⟩
  | 123 => ⟨S100000, .f32⟩
  | 124 => ⟨S100000x1, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S100000x128, .f32⟩
  | 7 => ⟨S_, .f32⟩
  | 8 => ⟨S1600000, .f32⟩
  | 9 => ⟨S_, .f32⟩
  | 10 => ⟨S100000, .f32⟩
  | 11 => ⟨S1600000x1, .i32⟩
  | 12 => ⟨S100000, .f32⟩
  | 13 => ⟨S_, .f32⟩
  | 14 => ⟨S100000, .f32⟩
  | 15 => ⟨S100000, .f32⟩
  | 16 => ⟨S100000, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x128, .f32⟩
  | 45 => ⟨S1600000x1, .f32⟩
  | 46 => ⟨S1600000x128, .f32⟩
  | 47 => ⟨S1600000x128, .f32⟩
  | 48 => ⟨S_, .f32⟩
  | 49 => ⟨S100000x128, .f32⟩
  | 50 => ⟨S1600000x1, .i32⟩
  | 51 => ⟨S100000x128, .f32⟩
  | 52 => ⟨S100000, .f32⟩
  | 53 => ⟨S100000x1, .f32⟩
  | 54 => ⟨S100000x128, .f32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S_, .f32⟩
  | 64 => ⟨S512x128, .f32⟩
  | 65 => ⟨S100000x1, .i32⟩
  | 66 => ⟨S512x128, .f32⟩
  | 67 => ⟨S512x128, .f32⟩
  | 68 => ⟨S1x128, .f32⟩
  | 69 => ⟨S512x128, .f32⟩
  | 70 => ⟨S512x128, .f32⟩
  | 71 => ⟨S_, .f32⟩
  | 72 => ⟨S512x128, .f32⟩
  | 73 => ⟨S512x128, .f32⟩
  | 74 => ⟨S512x10, .f32⟩
  | 75 => ⟨S1x10, .f32⟩
  | 76 => ⟨S512x10, .f32⟩
  | 77 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_c_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_5 : Ref sig .tc := ⟨.hbm, 50, rfl⟩
abbrev main_v27 : Ref sig .tc := ⟨.hbm, 51, rfl⟩
abbrev main_v28 : Ref sig .tc := ⟨.hbm, 52, rfl⟩
abbrev main_c_6 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call0_cst : Ref sig .tc := ⟨.hbm, 74, rfl⟩
abbrev main_call0_v0 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_cst_9 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_11 : Ref sig .tc := ⟨.hbm, 88, rfl⟩
abbrev main_v57 : Ref sig .tc := ⟨.hbm, 89, rfl⟩
abbrev main_v58 : Ref sig .tc := ⟨.hbm, 90, rfl⟩
abbrev main_c_12 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_13 : Ref sig .tc := ⟨.hbm, 97, rfl⟩
abbrev main_v64 : Ref sig .tc := ⟨.hbm, 98, rfl⟩
abbrev main_v65 : Ref sig .tc := ⟨.hbm, 99, rfl⟩
abbrev main_c_14 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_15 : Ref sig .tc := ⟨.hbm, 107, rfl⟩
abbrev main_v72 : Ref sig .tc := ⟨.hbm, 108, rfl⟩
abbrev main_v73 : Ref sig .tc := ⟨.hbm, 109, rfl⟩
abbrev main_c_16 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_17 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_call1_cst : Ref sig .tc := ⟨.hbm, 131, rfl⟩
abbrev main_call1_v0 : Ref sig .tc := ⟨.hbm, 132, rfl⟩
abbrev main_v93 : Ref sig .tc := ⟨.hbm, 133, rfl⟩
abbrev main_v94 : Ref sig .tc := ⟨.hbm, 134, rfl⟩
abbrev main_cst_18 : Ref sig .tc := ⟨.hbm, 135, rfl⟩
abbrev main_v95 : Ref sig .tc := ⟨.hbm, 136, rfl⟩
abbrev main_cst_19 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_20 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_c_21 : Ref sig .tc := ⟨.hbm, 145, rfl⟩
abbrev main_v102 : Ref sig .tc := ⟨.hbm, 146, rfl⟩
abbrev main_v103 : Ref sig .tc := ⟨.hbm, 147, rfl⟩
abbrev main_c_22 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_c_23 : Ref sig .tc := ⟨.hbm, 154, rfl⟩
abbrev main_v109 : Ref sig .tc := ⟨.hbm, 155, rfl⟩
abbrev main_v110 : Ref sig .tc := ⟨.hbm, 156, rfl⟩
abbrev main_c_24 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_c_25 : Ref sig .tc := ⟨.hbm, 164, rfl⟩
abbrev main_v117 : Ref sig .tc := ⟨.hbm, 165, rfl⟩
abbrev main_v118 : Ref sig .tc := ⟨.hbm, 166, rfl⟩
abbrev main_c_26 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_27 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_call2_cst : Ref sig .tc := ⟨.hbm, 188, rfl⟩
abbrev main_call2_v0 : Ref sig .tc := ⟨.hbm, 189, rfl⟩
abbrev main_v138 : Ref sig .tc := ⟨.hbm, 190, rfl⟩
abbrev main_cst_28 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_call3_cst : Ref sig .tc := ⟨.hbm, 199, rfl⟩
abbrev main_call3_v0 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S512x128 : S_.BroadcastsInDim S512x128 (![] : Fin 0 → Fin S512x128.rank)
  bcast_S1x128_S512x128_0_1 : S1x128.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  dot_S512x128_S128x128_S512x128_1_0_0_1_n_n_wf : DotDims.WF S512x128 S128x128 S512x128 [1] [0] [0] [1] [] []
  dot_S512x128_S128x10_S512x10_1_0_0_1_n_n_wf : DotDims.WF S512x128 S128x10 S512x10 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.KFrLin0.lean ====
import proofs.«400973_j32538672234673_1_alg».proof.Proof.Gen.Kernel.Launch
import proofs.«400973_j32538672234673_1_alg».proof.Proof.Gen.Kernel.Skeleton
import proofs.«400973_j32538672234673_1_alg».proof.Proof.Gen.Kernel.Points
import Idealize.ShloMosaic.Lib.Pipeline.FrameBody
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S5000x128 := Rect.unit (s := S5000x128) ![0, 0] S5000x128.size inb_S5000x128_S5000x128_0_0
abbrev rW0 : Rect S128x128 := Rect.unit (s := S128x128) ![0, 0] S128x128.size inb_S128x128_S128x128_0_0
abbrev rB0 : Rect S128 := Rect.unit (s := S128) ![0] S128.size inb_S128_S128_0

def out0_3 (x0 : Vec F S5000x128 .f32) (x1 : Vec F S128x128 .f32) (x2 : Vec F S128 .f32) : Vec F S5000x128 .f32 :=
  View.canon [⟨rA0, k0_pay1 (View.ld x0 rA0) (View.ld x1 rW0) (View.ld x2 rB0)⟩]

-- The body's triple, its inputs' contents given up to an equation, so that it applies to the obligation as the library states it.
theorem sound_kernel0 (c : Dev nD) (i : grid0.Coords)
    (arg1 : Memref sig .tc .vmem S5000x128 .f32) (harg1 : arg1.IsWhole) (arg2 : Memref sig .tc .vmem S128x128 .f32) (harg2 : arg2.IsWhole)
    (arg3 : Memref sig .tc .vmem S128 .f32) (harg3 : arg3.IsWhole) (arg4 : Memref sig .tc .vmem S5000x128 .f32) (harg4 : arg4.IsWhole)
    {D0 D1 D2 D3 : Type} {b0 : D0 → _} {b1 : D1 → _} {b2 : D2 → _} {b3 : D3 → _} {x0 x1 x2 y} (h0 : ∀ d, b0 d = x0) (h1 : ∀ d, b1 d = x1) (h2 : ∀ d, b2 d = x2)
    (hy : y = out0_3 x0 x1 x2) (R Ro : sProp 𝕄) :
    iprop(R ∗ Ro ∗ (∃ d, owns c arg1 fullShare (b0 d)) ∗ (∃ d, owns c arg2 fullShare (b1 d))
        ∗ (∃ d, owns c arg3 fullShare (b2 d)) ∗ (∃ d, owns c arg4 fullShare (b3 d)))
      ⊢ wp frame (wpE (defs₀ (F := F)) Variants.none c none) Set.univ (cc0__linear_kernel i arg1 harg1 arg2 harg2 arg3 harg3 arg4 harg4) fun _ =>
        iprop(R ∗ Ro ∗ owns c arg1 fullShare x0 ∗ owns c arg2 fullShare x1
          ∗ owns c arg3 fullShare x2 ∗ owns c arg4 fullShare y) := by
  subst hy
  simp only [cc0__linear_kernel_eq_skeleton, h0, h1, h2]; unfold cc0__linear_kernel_skel owns
  iintro ⟨HR, Ho, ⟨%_, %f0, %hf0, H0⟩, ⟨%_, %f1, %hf1, H1⟩, ⟨%_, %f2, %hf2, H2⟩, ⟨%_, %f3, -, H3⟩⟩
  subst hf0 hf1 hf2
  sl_exec
  sl_step
  iframe
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (View.cover_of_tiled _ S5000x128.size (by rfl))

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl
theorem after0_3 (c : Dev nD) (t : Fin cfg0.N) :
    (dat0 V c).after 3 t = out0_3 (iblk0 V c 0 t) (iblk0 V c 1 t) (iblk0 V c 2 t) := by dsimp only [dat0]

-- On an input window `before` and `after` agree, so the triple's precondition is read at the values its postcondition names.
theorem before0 (c : Dev nD) (t : Fin cfg0.N) : ∀ w, (cfg0.win w).isOut = false → ∀ d, (dat0 V c).before w t d = (dat0 V c).after w t
  | 0, _, d | 1, _, d | 2, _, d => ((dat0 V c).before_in_eq_fetched _ rfl (fun _ => rfl) (fun _ _ _ => rfl) (fun _ => rfl) t d).trans rfl
  | 3, h, _ => nomatch h

theorem body_obligation0 (c : Dev nD) : BodyObligation (dat0 (F := F) V c) (defs₀ (F := F)) Variants.none () Set.univ := fun t => by
  rw [bigSep_W0, bigSep_W0]
  show _ ⊢ wp _ _ _ (bodyAt0 t) _
  exact sound_kernel0 c (grid0.coords t) _ _ _ _ _ _ _ _ (before0 V c t 0 rfl) (before0 V c t 1 rfl) (before0 V c t 2 rfl) (after0_3 V c t) _ _

end

end Cert.Kernel.Fr

end
-- ==== Proof.KFrLin1.lean ====
import proofs.«400973_j32538672234673_1_alg».proof.Proof.Gen.Kernel.Launch
import proofs.«400973_j32538672234673_1_alg».proof.Proof.Gen.Kernel.Skeleton
import proofs.«400973_j32538672234673_1_alg».proof.Proof.Gen.Kernel.Points
import Idealize.ShloMosaic.Lib.Pipeline.FrameBody
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S5000x128 := Rect.unit (s := S5000x128) ![0, 0] S5000x128.size inb_S5000x128_S5000x128_0_0
abbrev rW1 : Rect S128x128 := Rect.unit (s := S128x128) ![0, 0] S128x128.size inb_S128x128_S128x128_0_0
abbrev rB1 : Rect S128 := Rect.unit (s := S128) ![0] S128.size inb_S128_S128_0

def out1_3 (x0 : Vec F S5000x128 .f32) (x1 : Vec F S128x128 .f32) (x2 : Vec F S128 .f32) : Vec F S5000x128 .f32 :=
  View.canon [⟨rA1, k1_pay1 (View.ld x0 rA1) (View.ld x1 rW1) (View.ld x2 rB1)⟩]

-- The body's triple, its inputs' contents given up to an equation, so that it applies to the obligation as the library states it.
theorem sound_kernel1 (c : Dev nD) (i : grid1.Coords)
    (arg1 : Memref sig .tc .vmem S5000x128 .f32) (harg1 : arg1.IsWhole) (arg2 : Memref sig .tc .vmem S128x128 .f32) (harg2 : arg2.IsWhole)
    (arg3 : Memref sig .tc .vmem S128 .f32) (harg3 : arg3.IsWhole) (arg4 : Memref sig .tc .vmem S5000x128 .f32) (harg4 : arg4.IsWhole)
    {D0 D1 D2 D3 : Type} {b0 : D0 → _} {b1 : D1 → _} {b2 : D2 → _} {b3 : D3 → _} {x0 x1 x2 y} (h0 : ∀ d, b0 d = x0) (h1 : ∀ d, b1 d = x1) (h2 : ∀ d, b2 d = x2)
    (hy : y = out1_3 x0 x1 x2) (R Ro : sProp 𝕄) :
    iprop(R ∗ Ro ∗ (∃ d, owns c arg1 fullShare (b0 d)) ∗ (∃ d, owns c arg2 fullShare (b1 d))
        ∗ (∃ d, owns c arg3 fullShare (b2 d)) ∗ (∃ d, owns c arg4 fullShare (b3 d)))
      ⊢ wp frame (wpE (defs₀ (F := F)) Variants.none c none) Set.univ (cc1__linear_kernel i arg1 harg1 arg2 harg2 arg3 harg3 arg4 harg4) fun _ =>
        iprop(R ∗ Ro ∗ owns c arg1 fullShare x0 ∗ owns c arg2 fullShare x1
          ∗ owns c arg3 fullShare x2 ∗ owns c arg4 fullShare y) := by
  subst hy
  simp only [cc1__linear_kernel_eq_skeleton, h0, h1, h2]; unfold cc1__linear_kernel_skel owns
  iintro ⟨HR, Ho, ⟨%_, %f0, %hf0, H0⟩, ⟨%_, %f1, %hf1, H1⟩, ⟨%_, %f2, %hf2, H2⟩, ⟨%_, %f3, -, H3⟩⟩
  subst hf0 hf1 hf2
  sl_exec
  sl_step
  iframe
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (View.cover_of_tiled _ S5000x128.size (by rfl))

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl
theorem after1_3 (c : Dev nD) (t : Fin cfg1.N) :
    (dat1 V c).after 3 t = out1_3 (iblk1 V c 0 t) (iblk1 V c 1 t) (iblk1 V c 2 t) := by dsimp only [dat1]

-- On an input window `before` and `after` agree, so the triple's precondition is read at the values its postcondition names.
theorem before1 (c : Dev nD) (t : Fin cfg1.N) : ∀ w, (cfg1.win w).isOut = false → ∀ d, (dat1 V c).before w t d = (dat1 V c).after w t
  | 0, _, d | 1, _, d | 2, _, d => ((dat1 V c).before_in_eq_fetched _ rfl (fun _ => rfl) (fun _ _ _ => rfl) (fun _ => rfl) t d).trans rfl
  | 3, h, _ => nomatch h

theorem body_obligation1 (c : Dev nD) : BodyObligation (dat1 (F := F) V c) (defs₀ (F := F)) Variants.none () Set.univ := fun t => by
  rw [bigSep_W1, bigSep_W1]
  show _ ⊢ wp _ _ _ (bodyAt1 t) _
  exact sound_kernel1 c (grid1.coords t) _ _ _ _ _ _ _ _ (before1 V c t 0 rfl) (before1 V c t 1 rfl) (before1 V c t 2 rfl) (after1_3 V c t) _ _

end

end Cert.Kernel.Fr

end
-- ==== Proof.KFrFus2.lean ====
import proofs.«400973_j32538672234673_1_alg».proof.Proof.Gen.Kernel.Launch
import proofs.«400973_j32538672234673_1_alg».proof.Proof.Gen.Kernel.Skeleton
import proofs.«400973_j32538672234673_1_alg».proof.Proof.Gen.Kernel.Points
import Idealize.ShloMosaic.Lib.Pipeline.FrameBody
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S5000x128 := Rect.unit (s := S5000x128) ![0, 0] S5000x128.size inb_S5000x128_S5000x128_0_0
abbrev rD2 : Rect S5000x1 := Rect.unit (s := S5000x1) ![0, 0] S5000x1.size inb_S5000x1_S5000x1_0_0
abbrev rB2 : Rect S128 := Rect.unit (s := S128) ![0] S128.size inb_S128_S128_0

def out2_4 (x0 x1 : Vec F S5000x128 .f32) (x2 : Vec F S5000x1 .f32) (x3 : Vec F S128 .f32) : Vec F S5000x128 .f32 :=
  View.canon [⟨rA2, k2_pay1 (View.ld x0 rA2) (View.ld x1 rA2) (View.ld x2 rD2) (View.ld x3 rB2)⟩]

-- The body's triple, its inputs' contents given up to an equation, so that it applies to the obligation as the library states it.
theorem sound_kernel2 (c : Dev nD) (i : grid2.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S128 .f32) (harg4 : arg4.IsWhole)
    (arg5 : Memref sig .tc .vmem S5000x128 .f32) (harg5 : arg5.IsWhole)
    {D0 D1 D2 D3 D4 : Type} {b0 : D0 → _} {b1 : D1 → _} {b2 : D2 → _} {b3 : D3 → _} {b4 : D4 → _} {x0 x1 x2 x3 y}
    (h0 : ∀ d, b0 d = x0) (h1 : ∀ d, b1 d = x1) (h2 : ∀ d, b2 d = x2) (h3 : ∀ d, b3 d = x3) (hy : y = out2_4 x0 x1 x2 x3) (R Ro : sProp 𝕄) :
    iprop(R ∗ Ro ∗ (∃ d, owns c arg1 fullShare (b0 d)) ∗ (∃ d, owns c arg2 fullShare (b1 d))
        ∗ (∃ d, owns c arg3 fullShare (b2 d)) ∗ (∃ d, owns c arg4 fullShare (b3 d))
        ∗ (∃ d, owns c arg5 fullShare (b4 d)))
      ⊢ wp frame (wpE (defs₀ (F := F)) Variants.none c none) Set.univ (cc2__fused_update_kernel i arg1 harg1 arg2 harg2 arg3 harg3 arg4 harg4 arg5 harg5) fun _ =>
        iprop(R ∗ Ro ∗ owns c arg1 fullShare x0 ∗ owns c arg2 fullShare x1
          ∗ owns c arg3 fullShare x2 ∗ owns c arg4 fullShare x3 ∗ owns c arg5 fullShare y) := by
  subst hy
  simp only [cc2__fused_update_kernel_eq_skeleton, h0, h1, h2, h3]; unfold cc2__fused_update_kernel_skel owns
  iintro ⟨HR, Ho, ⟨%_, %f0, %hf0, H0⟩, ⟨%_, %f1, %hf1, H1⟩, ⟨%_, %f2, %hf2, H2⟩, ⟨%_, %f3, %hf3, H3⟩, ⟨%_, %f4, -, H4⟩⟩
  subst hf0 hf1 hf2 hf3
  sl_exec
  sl_step
  iframe
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; iframe; ipureintro
  exact View.read_writes_eq_canon _ _ _ (View.cover_of_tiled _ S5000x128.size (by rfl))

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := rfl
theorem after2_4 (c : Dev nD) (t : Fin cfg2.N) :
    (dat2 V c).after 4 t = out2_4 (iblk2 V c 0 t) (iblk2 V c 1 t) (iblk2 V c 2 t) (iblk2 V c 3 t) := by dsimp only [dat2]

-- On an input window `before` and `after` agree, so the triple's precondition is read at the values its postcondition names.
theorem before2 (c : Dev nD) (t : Fin cfg2.N) : ∀ w, (cfg2.win w).isOut = false → ∀ d, (dat2 V c).before w t d = (dat2 V c).after w t
  | 0, _, d | 1, _, d | 2, _, d | 3, _, d => ((dat2 V c).before_in_eq_fetched _ rfl (fun _ => rfl) (fun _ _ _ => rfl) (fun _ => rfl) t d).trans rfl
  | 4, h, _ => nomatch h

theorem body_obligation2 (c : Dev nD) : BodyObligation (dat2 (F := F) V c) (defs₀ (F := F)) Variants.none () Set.univ := fun t => by
  rw [bigSep_W2, bigSep_W2]
  show _ ⊢ wp _ _ _ (bodyAt2 t) _
  exact sound_kernel2 c (grid2.coords t) _ _ _ _ _ _ _ _ _ _
    (before2 V c t 0 rfl) (before2 V c t 1 rfl) (before2 V c t 2 rfl) (before2 V c t 3 rfl) (after2_4 V c t) _ _

end

end Cert.Kernel.Fr

end
-- ==== Proof.KFrLin3.lean ====
import proofs.«400973_j32538672234673_1_alg».proof.Proof.Gen.Kernel.Launch
import proofs.«400973_j32538672234673_1_alg».proof.Proof.Gen.Kernel.Skeleton
import proofs.«400973_j32538672234673_1_alg».proof.Proof.Gen.Kernel.Points
import Idealize.ShloMosaic.Lib.Pipeline.FrameBody
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rA3 : Rect S5000x128 := Rect.unit (s := S5000x128) ![0, 0] S5000x128.size inb_S5000x128_S5000x128_0_0
abbrev rW3 : Rect S128x128 := Rect.unit (s := S128x128) ![0, 0] S128x128.size inb_S128x128_S128x128_0_0
abbrev rB3 : Rect S128 := Rect.unit (s := S128) ![0] S128.size inb_S128_S128_0

def out3_3 (x0 : Vec F S5000x128 .f32) (x1 : Vec F S128x128 .f32) (x2 : Vec F S128 .f32) : Vec F S5000x128 .f32 :=
  View.canon [⟨rA3, k3_pay1 (View.ld x0 rA3) (View.ld x1 rW3) (View.ld x2 rB3)⟩]

-- The body's triple, its inputs' contents given up to an equation, so that it applies to the obligation as the library states it.
theorem sound_kernel3 (c : Dev nD) (i : grid3.Coords)
    (arg1 : Memref sig .tc .vmem S5000x128 .f32) (harg1 : arg1.IsWhole) (arg2 : Memref sig .tc .vmem S128x128 .f32) (harg2 : arg2.IsWhole)
    (arg3 : Memref sig .tc .vmem S128 .f32) (harg3 : arg3.IsWhole) (arg4 : Memref sig .tc .vmem S5000x128 .f32) (harg4 : arg4.IsWhole)
    {D0 D1 D2 D3 : Type} {b0 : D0 → _} {b1 : D1 → _} {b2 : D2 → _} {b3 : D3 → _} {x0 x1 x2 y} (h0 : ∀ d, b0 d = x0) (h1 : ∀ d, b1 d = x1) (h2 : ∀ d, b2 d = x2)
    (hy : y = out3_3 x0 x1 x2) (R Ro : sProp 𝕄) :
    iprop(R ∗ Ro ∗ (∃ d, owns c arg1 fullShare (b0 d)) ∗ (∃ d, owns c arg2 fullShare (b1 d))
        ∗ (∃ d, owns c arg3 fullShare (b2 d)) ∗ (∃ d, owns c arg4 fullShare (b3 d)))
      ⊢ wp frame (wpE (defs₀ (F := F)) Variants.none c none) Set.univ (cc3__linear_kernel i arg1 harg1 arg2 harg2 arg3 harg3 arg4 harg4) fun _ =>
        iprop(R ∗ Ro ∗ owns c arg1 fullShare x0 ∗ owns c arg2 fullShare x1
          ∗ owns c arg3 fullShare x2 ∗ owns c arg4 fullShare y) := by
  subst hy
  simp only [cc3__linear_kernel_eq_skeleton, h0, h1, h2]; unfold cc3__linear_kernel_skel owns
  iintro ⟨HR, Ho, ⟨%_, %f0, %hf0, H0⟩, ⟨%_, %f1, %hf1, H1⟩, ⟨%_, %f2, %hf2, H2⟩, ⟨%_, %f3, -, H3⟩⟩
  subst hf0 hf1 hf2
  sl_exec
  sl_step
  iframe
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (View.cover_of_tiled _ S5000x128.size (by rfl))

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := rfl
theorem after3_3 (c : Dev nD) (t : Fin cfg3.N) :
    (dat3 V c).after 3 t = out3_3 (iblk3 V c 0 t) (iblk3 V c 1 t) (iblk3 V c 2 t) := by dsimp only [dat3]

-- On an input window `before` and `after` agree, so the triple's precondition is read at the values its postcondition names.
theorem before3 (c : Dev nD) (t : Fin cfg3.N) : ∀ w, (cfg3.win w).isOut = false → ∀ d, (dat3 V c).before w t d = (dat3 V c).after w t
  | 0, _, d | 1, _, d | 2, _, d => ((dat3 V c).before_in_eq_fetched _ rfl (fun _ => rfl) (fun _ _ _ => rfl) (fun _ => rfl) t d).trans rfl
  | 3, h, _ => nomatch h

theorem body_obligation3 (c : Dev nD) : BodyObligation (dat3 (F := F) V c) (defs₀ (F := F)) Variants.none () Set.univ := fun t => by
  rw [bigSep_W3, bigSep_W3]
  show _ ⊢ wp _ _ _ (bodyAt3 t) _
  exact sound_kernel3 c (grid3.coords t) _ _ _ _ _ _ _ _ (before3 V c t 0 rfl) (before3 V c t 1 rfl) (before3 V c t 2 rfl) (after3_3 V c t) _ _

end

end Cert.Kernel.Fr

end
-- ==== Proof.KFrFus4.lean ====
import proofs.«400973_j32538672234673_1_alg».proof.Proof.Gen.Kernel.Launch
import proofs.«400973_j32538672234673_1_alg».proof.Proof.Gen.Kernel.Skeleton
import proofs.«400973_j32538672234673_1_alg».proof.Proof.Gen.Kernel.Points
import Idealize.ShloMosaic.Lib.Pipeline.FrameBody
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rA4 : Rect S5000x128 := Rect.unit (s := S5000x128) ![0, 0] S5000x128.size inb_S5000x128_S5000x128_0_0
abbrev rD4 : Rect S5000x1 := Rect.unit (s := S5000x1) ![0, 0] S5000x1.size inb_S5000x1_S5000x1_0_0
abbrev rB4 : Rect S128 := Rect.unit (s := S128) ![0] S128.size inb_S128_S128_0

def out4_4 (x0 x1 : Vec F S5000x128 .f32) (x2 : Vec F S5000x1 .f32) (x3 : Vec F S128 .f32) : Vec F S5000x128 .f32 :=
  View.canon [⟨rA4, k4_pay1 (View.ld x0 rA4) (View.ld x1 rA4) (View.ld x2 rD4) (View.ld x3 rB4)⟩]

-- The body's triple, its inputs' contents given up to an equation, so that it applies to the obligation as the library states it.
theorem sound_kernel4 (c : Dev nD) (i : grid4.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S128 .f32) (harg4 : arg4.IsWhole)
    (arg5 : Memref sig .tc .vmem S5000x128 .f32) (harg5 : arg5.IsWhole)
    {D0 D1 D2 D3 D4 : Type} {b0 : D0 → _} {b1 : D1 → _} {b2 : D2 → _} {b3 : D3 → _} {b4 : D4 → _} {x0 x1 x2 x3 y}
    (h0 : ∀ d, b0 d = x0) (h1 : ∀ d, b1 d = x1) (h2 : ∀ d, b2 d = x2) (h3 : ∀ d, b3 d = x3) (hy : y = out4_4 x0 x1 x2 x3) (R Ro : sProp 𝕄) :
    iprop(R ∗ Ro ∗ (∃ d, owns c arg1 fullShare (b0 d)) ∗ (∃ d, owns c arg2 fullShare (b1 d))
        ∗ (∃ d, owns c arg3 fullShare (b2 d)) ∗ (∃ d, owns c arg4 fullShare (b3 d))
        ∗ (∃ d, owns c arg5 fullShare (b4 d)))
      ⊢ wp frame (wpE (defs₀ (F := F)) Variants.none c none) Set.univ (cc4__fused_update_kernel i arg1 harg1 arg2 harg2 arg3 harg3 arg4 harg4 arg5 harg5) fun _ =>
        iprop(R ∗ Ro ∗ owns c arg1 fullShare x0 ∗ owns c arg2 fullShare x1
          ∗ owns c arg3 fullShare x2 ∗ owns c arg4 fullShare x3 ∗ owns c arg5 fullShare y) := by
  subst hy
  simp only [cc4__fused_update_kernel_eq_skeleton, h0, h1, h2, h3]; unfold cc4__fused_update_kernel_skel owns
  iintro ⟨HR, Ho, ⟨%_, %f0, %hf0, H0⟩, ⟨%_, %f1, %hf1, H1⟩, ⟨%_, %f2, %hf2, H2⟩, ⟨%_, %f3, %hf3, H3⟩, ⟨%_, %f4, -, H4⟩⟩
  subst hf0 hf1 hf2 hf3
  sl_exec
  sl_step
  iframe
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; iframe; ipureintro
  exact View.read_writes_eq_canon _ _ _ (View.cover_of_tiled _ S5000x128.size (by rfl))

def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := rfl
theorem after4_4 (c : Dev nD) (t : Fin cfg4.N) :
    (dat4 V c).after 4 t = out4_4 (iblk4 V c 0 t) (iblk4 V c 1 t) (iblk4 V c 2 t) (iblk4 V c 3 t) := by dsimp only [dat4]

-- On an input window `before` and `after` agree, so the triple's precondition is read at the values its postcondition names.
theorem before4 (c : Dev nD) (t : Fin cfg4.N) : ∀ w, (cfg4.win w).isOut = false → ∀ d, (dat4 V c).before w t d = (dat4 V c).after w t
  | 0, _, d | 1, _, d | 2, _, d | 3, _, d => ((dat4 V c).before_in_eq_fetched _ rfl (fun _ => rfl) (fun _ _ _ => rfl) (fun _ => rfl) t d).trans rfl
  | 4, h, _ => nomatch h

theorem body_obligation4 (c : Dev nD) : BodyObligation (dat4 (F := F) V c) (defs₀ (F := F)) Variants.none () Set.univ := fun t => by
  rw [bigSep_W4, bigSep_W4]
  show _ ⊢ wp _ _ _ (bodyAt4 t) _
  exact sound_kernel4 c (grid4.coords t) _ _ _ _ _ _ _ _ _ _
    (before4 V c t 0 rfl) (before4 V c t 1 rfl) (before4 V c t 2 rfl) (before4 V c t 3 rfl) (after4_4 V c t) _ _

end

end Cert.Kernel.Fr

end
-- ==== Proof.KFrLin5.lean ====
import proofs.«400973_j32538672234673_1_alg».proof.Proof.Gen.Kernel.Launch
import proofs.«400973_j32538672234673_1_alg».proof.Proof.Gen.Kernel.Skeleton
import proofs.«400973_j32538672234673_1_alg».proof.Proof.Gen.Kernel.Points
import Idealize.ShloMosaic.Lib.Pipeline.FrameBody
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rA5 : Rect S5000x128 := Rect.unit (s := S5000x128) ![0, 0] S5000x128.size inb_S5000x128_S5000x128_0_0
abbrev rW5 : Rect S128x128 := Rect.unit (s := S128x128) ![0, 0] S128x128.size inb_S128x128_S128x128_0_0
abbrev rB5 : Rect S128 := Rect.unit (s := S128) ![0] S128.size inb_S128_S128_0

def out5_3 (x0 : Vec F S5000x128 .f32) (x1 : Vec F S128x128 .f32) (x2 : Vec F S128 .f32) : Vec F S5000x128 .f32 :=
  View.canon [⟨rA5, k5_pay1 (View.ld x0 rA5) (View.ld x1 rW5) (View.ld x2 rB5)⟩]

-- The body's triple, its inputs' contents given up to an equation, so that it applies to the obligation as the library states it.
theorem sound_kernel5 (c : Dev nD) (i : grid5.Coords)
    (arg1 : Memref sig .tc .vmem S5000x128 .f32) (harg1 : arg1.IsWhole) (arg2 : Memref sig .tc .vmem S128x128 .f32) (harg2 : arg2.IsWhole)
    (arg3 : Memref sig .tc .vmem S128 .f32) (harg3 : arg3.IsWhole) (arg4 : Memref sig .tc .vmem S5000x128 .f32) (harg4 : arg4.IsWhole)
    {D0 D1 D2 D3 : Type} {b0 : D0 → _} {b1 : D1 → _} {b2 : D2 → _} {b3 : D3 → _} {x0 x1 x2 y} (h0 : ∀ d, b0 d = x0) (h1 : ∀ d, b1 d = x1) (h2 : ∀ d, b2 d = x2)
    (hy : y = out5_3 x0 x1 x2) (R Ro : sProp 𝕄) :
    iprop(R ∗ Ro ∗ (∃ d, owns c arg1 fullShare (b0 d)) ∗ (∃ d, owns c arg2 fullShare (b1 d))
        ∗ (∃ d, owns c arg3 fullShare (b2 d)) ∗ (∃ d, owns c arg4 fullShare (b3 d)))
      ⊢ wp frame (wpE (defs₀ (F := F)) Variants.none c none) Set.univ (cc5__linear_kernel i arg1 harg1 arg2 harg2 arg3 harg3 arg4 harg4) fun _ =>
        iprop(R ∗ Ro ∗ owns c arg1 fullShare x0 ∗ owns c arg2 fullShare x1
          ∗ owns c arg3 fullShare x2 ∗ owns c arg4 fullShare y) := by
  subst hy
  simp only [cc5__linear_kernel_eq_skeleton, h0, h1, h2]; unfold cc5__linear_kernel_skel owns
  iintro ⟨HR, Ho, ⟨%_, %f0, %hf0, H0⟩, ⟨%_, %f1, %hf1, H1⟩, ⟨%_, %f2, %hf2, H2⟩, ⟨%_, %f3, -, H3⟩⟩
  subst hf0 hf1 hf2
  sl_exec
  sl_step
  iframe
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (View.cover_of_tiled _ S5000x128.size (by rfl))

def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := rfl
theorem after5_3 (c : Dev nD) (t : Fin cfg5.N) :
    (dat5 V c).after 3 t = out5_3 (iblk5 V c 0 t) (iblk5 V c 1 t) (iblk5 V c 2 t) := by dsimp only [dat5]

-- On an input window `before` and `after` agree, so the triple's precondition is read at the values its postcondition names.
theorem before5 (c : Dev nD) (t : Fin cfg5.N) : ∀ w, (cfg5.win w).isOut = false → ∀ d, (dat5 V c).before w t d = (dat5 V c).after w t
  | 0, _, d | 1, _, d | 2, _, d => ((dat5 V c).before_in_eq_fetched _ rfl (fun _ => rfl) (fun _ _ _ => rfl) (fun _ => rfl) t d).trans rfl
  | 3, h, _ => nomatch h

theorem body_obligation5 (c : Dev nD) : BodyObligation (dat5 (F := F) V c) (defs₀ (F := F)) Variants.none () Set.univ := fun t => by
  rw [bigSep_W5, bigSep_W5]
  show _ ⊢ wp _ _ _ (bodyAt5 t) _
  exact sound_kernel5 c (grid5.coords t) _ _ _ _ _ _ _ _ (before5 V c t 0 rfl) (before5 V c t 1 rfl) (before5 V c t 2 rfl) (after5_3 V c t) _ _

end

end Cert.Kernel.Fr

end
-- ==== Proof.KFrFus6.lean ====
import proofs.«400973_j32538672234673_1_alg».proof.Proof.Gen.Kernel.Launch
import proofs.«400973_j32538672234673_1_alg».proof.Proof.Gen.Kernel.Skeleton
import proofs.«400973_j32538672234673_1_alg».proof.Proof.Gen.Kernel.Points
import Idealize.ShloMosaic.Lib.Pipeline.FrameBody
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev rA6 : Rect S5000x128 := Rect.unit (s := S5000x128) ![0, 0] S5000x128.size inb_S5000x128_S5000x128_0_0
abbrev rD6 : Rect S5000x1 := Rect.unit (s := S5000x1) ![0, 0] S5000x1.size inb_S5000x1_S5000x1_0_0
abbrev rB6 : Rect S128 := Rect.unit (s := S128) ![0] S128.size inb_S128_S128_0

def out6_4 (x0 x1 : Vec F S5000x128 .f32) (x2 : Vec F S5000x1 .f32) (x3 : Vec F S128 .f32) : Vec F S5000x128 .f32 :=
  View.canon [⟨rA6, k6_pay1 (View.ld x0 rA6) (View.ld x1 rA6) (View.ld x2 rD6) (View.ld x3 rB6)⟩]

-- The body's triple, its inputs' contents given up to an equation, so that it applies to the obligation as the library states it.
theorem sound_kernel6 (c : Dev nD) (i : grid6.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S128 .f32) (harg4 : arg4.IsWhole)
    (arg5 : Memref sig .tc .vmem S5000x128 .f32) (harg5 : arg5.IsWhole)
    {D0 D1 D2 D3 D4 : Type} {b0 : D0 → _} {b1 : D1 → _} {b2 : D2 → _} {b3 : D3 → _} {b4 : D4 → _} {x0 x1 x2 x3 y}
    (h0 : ∀ d, b0 d = x0) (h1 : ∀ d, b1 d = x1) (h2 : ∀ d, b2 d = x2) (h3 : ∀ d, b3 d = x3) (hy : y = out6_4 x0 x1 x2 x3) (R Ro : sProp 𝕄) :
    iprop(R ∗ Ro ∗ (∃ d, owns c arg1 fullShare (b0 d)) ∗ (∃ d, owns c arg2 fullShare (b1 d))
        ∗ (∃ d, owns c arg3 fullShare (b2 d)) ∗ (∃ d, owns c arg4 fullShare (b3 d))
        ∗ (∃ d, owns c arg5 fullShare (b4 d)))
      ⊢ wp frame (wpE (defs₀ (F := F)) Variants.none c none) Set.univ (cc6__fused_update_kernel i arg1 harg1 arg2 harg2 arg3 harg3 arg4 harg4 arg5 harg5) fun _ =>
        iprop(R ∗ Ro ∗ owns c arg1 fullShare x0 ∗ owns c arg2 fullShare x1
          ∗ owns c arg3 fullShare x2 ∗ owns c arg4 fullShare x3 ∗ owns c arg5 fullShare y) := by
  subst hy
  simp only [cc6__fused_update_kernel_eq_skeleton, h0, h1, h2, h3]; unfold cc6__fused_update_kernel_skel owns
  iintro ⟨HR, Ho, ⟨%_, %f0, %hf0, H0⟩, ⟨%_, %f1, %hf1, H1⟩, ⟨%_, %f2, %hf2, H2⟩, ⟨%_, %f3, %hf3, H3⟩, ⟨%_, %f4, -, H4⟩⟩
  subst hf0 hf1 hf2 hf3
  sl_exec
  sl_step
  iframe
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; iframe; ipureintro
  exact View.read_writes_eq_canon _ _ _ (View.cover_of_tiled _ S5000x128.size (by rfl))

def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := rfl
theorem after6_4 (c : Dev nD) (t : Fin cfg6.N) :
    (dat6 V c).after 4 t = out6_4 (iblk6 V c 0 t) (iblk6 V c 1 t) (iblk6 V c 2 t) (iblk6 V c 3 t) := by dsimp only [dat6]

-- On an input window `before` and `after` agree, so the triple's precondition is read at the values its postcondition names.
theorem before6 (c : Dev nD) (t : Fin cfg6.N) : ∀ w, (cfg6.win w).isOut = false → ∀ d, (dat6 V c).before w t d = (dat6 V c).after w t
  | 0, _, d | 1, _, d | 2, _, d | 3, _, d => ((dat6 V c).before_in_eq_fetched _ rfl (fun _ => rfl) (fun _ _ _ => rfl) (fun _ => rfl) t d).trans rfl
  | 4, h, _ => nomatch h

theorem body_obligation6 (c : Dev nD) : BodyObligation (dat6 (F := F) V c) (defs₀ (F := F)) Variants.none () Set.univ := fun t => by
  rw [bigSep_W6, bigSep_W6]
  show _ ⊢ wp _ _ _ (bodyAt6 t) _
  exact sound_kernel6 c (grid6.coords t) _ _ _ _ _ _ _ _ _ _
    (before6 V c t 0 rfl) (before6 V c t 1 rfl) (before6 V c t 2 rfl) (before6 V c t 3 rfl) (after6_4 V c t) _ _

end

end Cert.Kernel.Fr

end
-- ==== Proof.KFrPool7.lean ====
import proofs.«400973_j32538672234673_1_alg».proof.Proof.Gen.Kernel.Launch
import proofs.«400973_j32538672234673_1_alg».proof.Proof.Gen.Kernel.Skeleton
import proofs.«400973_j32538672234673_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))
abbrev rX7 : Rect S5000x128 := Rect.unit (s := S5000x128) ![0, 0] S5000x128.size inb_S5000x128_S5000x128_0_0
abbrev rI7 : Rect S5000x1 := Rect.unit (s := S5000x1) ![0, 0] S5000x1.size inb_S5000x1_S5000x1_0_0
abbrev rW7 : Rect S128x128 := Rect.unit (s := S128x128) ![0, 0] S128x128.size inb_S128x128_S128x128_0_0
abbrev rB7 : Rect S128 := Rect.unit (s := S128) ![0] S128.size inb_S128_S128_0
abbrev rU7 : Rect S128x10 := Rect.unit (s := S128x10) ![0, 0] S128x10.size inb_S128x10_S128x10_0_0
abbrev rC7 : Rect S10 := Rect.unit (s := S10) ![0] S10.size inb_S10_S10_0
abbrev rS7 : Rect S512x128 := Rect.unit (s := S512x128) ![0, 0] S512x128.size inb_S512x128_S512x128_0_0
abbrev rO7 : Rect S512x10 := Rect.unit (s := S512x10) ![0, 0] S512x10.size inb_S512x10_S512x10_0_0

def zero7 : Vec F S512x128 .f32 := View.canon [⟨rS7, k7_pay1 (F := F)⟩]

def step7 (ids : Vec F S5000x1 .i32) (x : Vec F S5000x128 .f32) (a : Vec F S512x128 .f32) : Vec F S512x128 .f32 :=
  View.canon [⟨rS7, k7_pay2 (View.ld ids rI7) (View.ld x rX7) (View.ld a rS7)⟩]

def mlp7 (a : Vec F S512x128 .f32) (w1 : Vec F S128x128 .f32) (b1 : Vec F S128 .f32) (w2 : Vec F S128x10 .f32) (b2 : Vec F S10 .f32) :
    Vec F S512x10 .f32 :=
  View.canon [⟨rO7, k7_pay3 (View.ld a rS7) (View.ld w1 rW7) (View.ld b1 rB7) (View.ld w2 rU7) (View.ld b2 rC7)⟩]

theorem ld_canon_cons {s : Shape} {e : EltTy} (r : Rect s) (w : r.shape.Idx → Elt F e) (L : List (View.Piece (Elt F) s e)) :
    View.ld (View.canon (⟨r, w⟩ :: L)) r = w :=
  funext fun j => View.canon_cons_emb r w L j

theorem ld_zero7 : View.ld (zero7 (F := F)) rS7 = k7_pay1 (F := F) := ld_canon_cons _ _ _
theorem ld_step7 (ids : Vec F S5000x1 .i32) (x : Vec F S5000x128 .f32) (a : Vec F S512x128 .f32) :
    View.ld (step7 ids x a) rS7 = k7_pay2 (View.ld ids rI7) (View.ld x rX7) (View.ld a rS7) := ld_canon_cons _ _ _

def acc7 (c : Dev nD) : ℕ → Vec F S512x128 .f32
  | 0 => zero7
  | n + 1 => if h : n < cfg7.N then step7 (iblk7 V c 1 ⟨n, h⟩) (iblk7 V c 0 ⟨n, h⟩) (acc7 c n) else acc7 c n

theorem acc7_zero (c : Dev nD) : acc7 V c 0 = zero7 := rfl
theorem acc7_succ (c : Dev nD) (t : Fin cfg7.N) :
    acc7 V c (t.val + 1) = step7 (iblk7 V c 1 t) (iblk7 V c 0 t) (acc7 V c t.val) := by
  rw [acc7, dif_pos t.isLt]

abbrev t19 : Fin cfg7.N := ⟨19, by decide⟩

def out7_6 (c : Dev nD) : Vec F S512x10 .f32 :=
  mlp7 (acc7 V c 20) (iblk7 V c 2 t19) (iblk7 V c 3 t19) (iblk7 V c 4 t19) (iblk7 V c 5 t19)

theorem out7_6_eq (c : Dev nD) (t : Fin cfg7.N) (h : t.val = 19) :
    out7_6 V c = mlp7 (acc7 V c (t.val + 1)) (iblk7 V c 2 t) (iblk7 V c 3 t) (iblk7 V c 4 t) (iblk7 V c 5 t) := by
  obtain rfl : t = t19 := Fin.ext h
  rfl

abbrev scM7 : Memref sig .tc .vmem S512x128 .f32 := Memref.whole cc7_scratch0

abbrev rest7 (c : Dev nD) : sProp 𝕄 :=
  Pipeline.scopedRestBut (Ix := Unit) (Name := ℕ) (U := Pipeline.UD sig nD τ) (Lvl := ℕ) (Val := Elt F) spec7 c [cc7_scratch0]

def Φ7 (c : Dev nD) : ℕ → sProp 𝕄
  | 0 => iprop(rest7 c ∗ (∃ r, prngReg c r) ∗ (∃ d, owns (c : Thread nD τ) scM7 fullShare d))
  | n + 1 => iprop(rest7 c ∗ (∃ r, prngReg c r) ∗ owns (c : Thread nD τ) scM7 fullShare (acc7 V c (n + 1)))

theorem Φ7_zero (c : Dev nD) :
    Φ7 V c 0 = iprop(rest7 c ∗ (∃ r, prngReg c r) ∗ (∃ d, owns (c : Thread nD τ) scM7 fullShare d)) := rfl
theorem Φ7_succ (c : Dev nD) (n : ℕ) :
    Φ7 V c (n + 1) = iprop(rest7 c ∗ (∃ r, prngReg c r) ∗ owns (c : Thread nD τ) scM7 fullShare (acc7 V c (n + 1))) := rfl
theorem Φ7_pos (c : Dev nD) (n : ℕ) (hn : n ≠ 0) :
    Φ7 V c n = iprop(rest7 c ∗ (∃ r, prngReg c r) ∗ owns (c : Thread nD τ) scM7 fullShare (acc7 V c n)) := by
  cases n with
  | zero => exact absurd rfl hn
  | succ n => rfl

def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 V c
  Φ t := Φ7 V c t.val
  q _ := fullShare
  owed _ := 0

theorem A_eq7 (c : Dev nD) (w : Fin cfg7.W) : (dat7 V c).A w = V c (Pipeline.arrRef spec7 w) := by
  dsimp only [dat7]
theorem after7_6 (c : Dev nD) (t : Fin cfg7.N) : (dat7 V c).after 6 t = out7_6 V c := by dsimp only [dat7]

theorem before7 (c : Dev nD) (t : Fin cfg7.N) :
    (∀ d, (dat7 V c).before 0 t d = iblk7 V c 0 t) ∧ (∀ d, (dat7 V c).before 1 t d = iblk7 V c 1 t)
    ∧ (∀ d, (dat7 V c).before 2 t d = iblk7 V c 2 t) ∧ (∀ d, (dat7 V c).before 3 t d = iblk7 V c 3 t)
    ∧ (∀ d, (dat7 V c).before 4 t d = iblk7 V c 4 t) ∧ (∀ d, (dat7 V c).before 5 t d = iblk7 V c 5 t) := by
  refine ⟨?_, ?_, ?_, ?_, ?_, ?_⟩ <;> exact fun d =>
    ((dat7 V c).before_in_eq_fetched _ rfl (fun _ => rfl) (fun _ _ _ => rfl) (fun _ => by dsimp only [dat7]; rfl) t d).trans
      (by dsimp only [dat7]; rfl)

theorem Φ7_first (c : Dev nD) : (Pipeline.ΦA spec7 c : sProp 𝕄) ⊢ (dat7 V c).Φ 0 := by
  rw [show (dat7 V c).Φ 0 = Φ7 V c 0 from rfl]
  unfold Pipeline.ΦA Φ7 rest7
  rw [scopedRest7_split]
  simp only [scM7, owns_whole]
  iintro ⟨⟨HS, HR⟩, Hg⟩
  iframe

theorem Φ7_last (c : Dev nD) : (dat7 V c).Φ (Fin.last cfg7.N) ⊢ (Pipeline.ΦA spec7 c : sProp 𝕄) := by
  rw [show (dat7 V c).Φ (Fin.last cfg7.N) = Φ7 V c (19 + 1) from rfl]
  unfold Pipeline.ΦA Φ7 rest7
  rw [scopedRest7_split]
  simp only [scM7, owns_whole]
  iintro ⟨HR, Hg, HS⟩
  iframe HR Hg
  iexists _; iexact HS

abbrev cond7_0 (i : grid7.Coords) : Prop := (Scalar.cmpi .ne (Scalar.extui (Scalar.cmpi .eq (BitVec.ofNat 32 (i 0).val) 0#32)) 0#32) = 1#1
abbrev cond7_1 (i : grid7.Coords) : Prop := k7_cond2 i = 1#1

theorem hcond7_0 : ∀ t : Fin cfg7.N, cond7_0 (grid7.coords t) ↔ t.val = 0 :=
  (by decide +kernel : ∀ t : Fin grid7.N, cond7_0 (grid7.coords t) ↔ t.val = 0)
theorem hcond7_1 : ∀ t : Fin cfg7.N, cond7_1 (grid7.coords t) ↔ t.val = 19 :=
  (by decide +kernel : ∀ t : Fin grid7.N, cond7_1 (grid7.coords t) ↔ t.val = 19)

theorem idleAt7_6 : ∀ t : Fin cfg7.N, ¬cond7_1 (grid7.coords t) → cfg7.idle 6 (grid7.coords t) = true := by decide +kernel
theorem noFlush7_6 : ∀ t : Fin cfg7.N, ¬cond7_1 (grid7.coords t) → (cfg7.win 6).flush t = false := by decide +kernel
theorem liveAt7_6 : ∀ t : Fin cfg7.N, cond7_1 (grid7.coords t) → cfg7.idle 6 (grid7.coords t) = false := by decide +kernel

theorem cover7_S (p0 : Vec F S512x128 .f32) (y : S512x128.Idx) :
    ∃ pc ∈ ([⟨rS7, p0⟩] : List (View.Piece (Elt F) S512x128 .f32)), y ∈ pc.1.set :=
  View.cover_of_tiled [⟨rS7, p0⟩] S512x128.size (by rfl) y
theorem whole7_S (y : S512x128.Idx) : y ∈ (rS7).set := by
  obtain ⟨pc, hm, hy⟩ := View.cover_of_tiled (Val := fun _ => Unit) (e := .f32) [⟨rS7, fun _ => ()⟩] S512x128.size (by rfl) y
  rw [List.mem_singleton] at hm; subst hm; exact hy

theorem two_writes7 {κ : Kind} {sp : Space} (v : View sig κ sp S512x128 .f32) (f : v.ty.Contents (Elt F)) (P Z : Vec F S512x128 .f32) :
    v.read (Elt F) (v.writes (Elt F) f [⟨rS7, P⟩, ⟨rS7, Z⟩]) = View.canon [⟨rS7, P⟩] :=
  (View.read_writes_of_cover_last v f v f (⟨rS7, P⟩ : View.Piece (Elt F) S512x128 .f32) [⟨rS7, Z⟩] [] whole7_S).trans
    (View.read_writes_eq_canon _ _ _ (cover7_S _))

section
variable (c : Dev nD) {E : Set ℕ} {i : grid7.Coords}
  {arg1 : Memref sig .tc .vmem S5000x128 .f32} {harg1 : arg1.IsWhole} {arg2 : Memref sig .tc .vmem S5000x1 .i32} {harg2 : arg2.IsWhole}
  {arg3 : Memref sig .tc .vmem S128x128 .f32} {harg3 : arg3.IsWhole} {arg4 : Memref sig .tc .vmem S128 .f32} {harg4 : arg4.IsWhole}
  {arg5 : Memref sig .tc .vmem S128x10 .f32} {harg5 : arg5.IsWhole} {arg6 : Memref sig .tc .vmem S10 .f32} {harg6 : arg6.IsWhole}
  {arg7 : Memref sig .tc .vmem S512x10 .f32} {harg7 : arg7.IsWhole} {arg8 : Memref sig .tc .vmem S512x128 .f32} {harg8 : arg8.IsWhole}
  (x0 : Vec F S5000x128 .f32) (x1 : Vec F S5000x1 .i32) (x2 : Vec F S128x128 .f32) (x3 : Vec F S128 .f32)
  (x4 : Vec F S128x10 .f32) (x5 : Vec F S10 .f32) (a : Vec F S512x128 .f32)

-- The first point: the accumulator, found at anything, is zeroed and then updated with the point's tile.
theorem sound_kernel7_A {K : PUnit → sProp 𝕄} (hc0 : cond7_0 i) (hc1 : ¬cond7_1 i) :
    iprop(owns (c : Thread nD τ) arg1 fullShare x0 ∗ owns (c : Thread nD τ) arg2 fullShare x1 ∗ (∃ d, owns (c : Thread nD τ) arg8 fullShare d)
        ∗ (iprop(owns (c : Thread nD τ) arg1 fullShare x0 ∗ owns (c : Thread nD τ) arg2 fullShare x1
            ∗ owns (c : Thread nD τ) arg8 fullShare (step7 x1 x0 zero7)) -∗ K ⟨⟩))
      ⊢ wp frame (wpE (defs₀ (F := F)) Variants.none c none) E
          (cc7__pool_mlp_kernel i arg1 harg1 arg2 harg2 arg3 harg3 arg4 harg4 arg5 harg5 arg6 harg6 arg7 harg7 arg8 harg8) K := by
  simp only [cc7__pool_mlp_kernel_eq_skeleton]; unfold cc7__pool_mlp_kernel_skel
  unfold owns
  iintro ⟨⟨%f0, %hf0, H0⟩, ⟨%f1, %hf1, H1⟩, ⟨%d, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  unfold sound_kernel7_A.sl.v14 sound_kernel7_A.sl.HS_1
  rw [View.readCov_cons_toLoadRect]
  unfold step7; rw [ld_zero7]
  exact two_writes7 _ _ _ _

-- A middle point: the accumulator, found at `a`, is updated with the point's tile.
theorem sound_kernel7_B {K : PUnit → sProp 𝕄} (hc0 : ¬cond7_0 i) (hc1 : ¬cond7_1 i) :
    iprop(owns (c : Thread nD τ) arg1 fullShare x0 ∗ owns (c : Thread nD τ) arg2 fullShare x1 ∗ owns (c : Thread nD τ) arg8 fullShare a
        ∗ (iprop(owns (c : Thread nD τ) arg1 fullShare x0 ∗ owns (c : Thread nD τ) arg2 fullShare x1
            ∗ owns (c : Thread nD τ) arg8 fullShare (step7 x1 x0 a)) -∗ K ⟨⟩))
      ⊢ wp frame (wpE (defs₀ (F := F)) Variants.none c none) E
          (cc7__pool_mlp_kernel i arg1 harg1 arg2 harg2 arg3 harg3 arg4 harg4 arg5 harg5 arg6 harg6 arg7 harg7 arg8 harg8) K := by
  simp only [cc7__pool_mlp_kernel_eq_skeleton]; unfold cc7__pool_mlp_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  exact View.read_writes_eq_canon _ _ _ (cover7_S _)

-- The last point: after the update, the perceptron of the accumulator is stored into the result block, found at `d6`.
theorem sound_kernel7_C (d6 : Vec F S512x10 .f32) {K : PUnit → sProp 𝕄} (hc0 : ¬cond7_0 i) (hc1 : cond7_1 i) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare d6 ∗ owns (c : Thread nD τ) arg8 fullShare a
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (mlp7 (step7 x1 x0 a) x2 x3 x4 x5)
            ∗ owns (c : Thread nD τ) arg8 fullShare (step7 x1 x0 a)) -∗ K ⟨⟩))
      ⊢ wp frame (wpE (defs₀ (F := F)) Variants.none c none) E
          (cc7__pool_mlp_kernel i arg1 harg1 arg2 harg2 arg3 harg3 arg4 harg4 arg5 harg5 arg6 harg6 arg7 harg7 arg8 harg8) K := by
  simp only [cc7__pool_mlp_kernel_eq_skeleton]; unfold cc7__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, ⟨%fs, %hfs, HS⟩, Hk⟩
  subst hf0; subst hf1; subst hf2; subst hf3; subst hf4; subst hf5; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    unfold sound_kernel7_C.sl.v23 sound_kernel7_C.sl.HS_1
    rw [View.readCov_cons_toLoadRect]
    unfold mlp7; rw [ld_step7]
    exact View.read_writes_eq_canon _ _ _ (View.cover_of_tiled _ S512x10.size (by rfl))
  iexists _; isplitr
  swap; · iexact HS
  ipureintro
  unfold sound_kernel7_C.sl.HS_1
  exact View.read_writes_eq_canon _ _ _ (cover7_S _)

end

-- The body at any point: its case is read off the position; the invariant lends the accumulator and takes it back one update on.
theorem sound_body7 (c : Dev nD) (t : Fin cfg7.N) :
    iprop(Φ7 V c t.val ∗ (dat7 V c).owesAt () t.castSucc
      ∗ (∃ d, owns (c : Thread nD τ) (st7_0 t) fullShare ((dat7 V c).before 0 t d))
      ∗ (∃ d, owns (c : Thread nD τ) (st7_1 t) fullShare ((dat7 V c).before 1 t d))
      ∗ (∃ d, owns (c : Thread nD τ) (st7_2 t) fullShare ((dat7 V c).before 2 t d))
      ∗ (∃ d, owns (c : Thread nD τ) (st7_3 t) fullShare ((dat7 V c).before 3 t d))
      ∗ (∃ d, owns (c : Thread nD τ) (st7_4 t) fullShare ((dat7 V c).before 4 t d))
      ∗ (∃ d, owns (c : Thread nD τ) (st7_5 t) fullShare ((dat7 V c).before 5 t d))
      ∗ (∃ d, owns (c : Thread nD τ) (st7_6 t) fullShare ((dat7 V c).before 6 t d)))
    ⊢ wp frame (wpE (defs₀ (F := F)) Variants.none c none) Set.univ (bodyAt7 t) fun _ =>
      iprop(Φ7 V c (t.val + 1) ∗ (dat7 V c).owesAt () t.castSucc
        ∗ owns (c : Thread nD τ) (st7_0 t) fullShare (iblk7 V c 0 t)
        ∗ owns (c : Thread nD τ) (st7_1 t) fullShare (iblk7 V c 1 t)
        ∗ owns (c : Thread nD τ) (st7_2 t) fullShare (iblk7 V c 2 t)
        ∗ owns (c : Thread nD τ) (st7_3 t) fullShare (iblk7 V c 3 t)
        ∗ owns (c : Thread nD τ) (st7_4 t) fullShare (iblk7 V c 4 t)
        ∗ owns (c : Thread nD τ) (st7_5 t) fullShare (iblk7 V c 5 t)
        ∗ (dat7 V c).leavesExact 6 t) := by
  unfold bodyAt7
  obtain ⟨b0, b1, b2, b3, b4, b5⟩ := before7 V c t
  simp only [b0, b1, b2, b3, b4, b5]
  rw [Φ7_succ, acc7_succ]
  have hN : t.val < 20 := lt_of_lt_of_eq t.isLt (show cfg7.N = 20 from N_7)
  by_cases hl : t.val = 19
  · have hc0 : ¬cond7_0 (grid7.coords t) := fun h => by have := (hcond7_0 t).mp h; omega
    have hc1 : cond7_1 (grid7.coords t) := (hcond7_1 t).mpr hl
    rw [Φ7_pos V c _ (by omega), show (dat7 V c).leavesExact 6 t = owns (c : Thread nD τ) (st7_6 t) fullShare ((dat7 V c).after 6 t) from by
      unfold Dat.leavesExact; rw [liveAt7_6 t hc1], after7_6, out7_6_eq V c t hl, acc7_succ]
    iintro ⟨⟨HR, Hg, HS⟩, Ho, ⟨%d0, H0⟩, ⟨%d1, H1⟩, ⟨%d2, H2⟩, ⟨%d3, H3⟩, ⟨%d4, H4⟩, ⟨%d5, H5⟩, ⟨%d6, H6⟩⟩
    iapply (sound_kernel7_C c (iblk7 V c 0 t) (iblk7 V c 1 t) (iblk7 V c 2 t) (iblk7 V c 3 t) (iblk7 V c 4 t) (iblk7 V c 5 t)
      (acc7 V c t.val) ((dat7 V c).before 6 t d6) hc0 hc1)
    iframe H0 H1 H2 H3 H4 H5 H6 HS
    iintro ⟨H0, H1, H2, H3, H4, H5, H6, HS⟩
    iframe
  · have hc1 : ¬cond7_1 (grid7.coords t) := fun h => hl ((hcond7_1 t).mp h)
    rw [Dat.leavesExact_idle (dat7 V c) 6 t (idleAt7_6 t hc1) (noFlush7_6 t hc1)]
    by_cases hz : t.val = 0
    · rw [show Φ7 V c t.val = Φ7 V c 0 from by rw [hz], Φ7_zero, show acc7 V c t.val = zero7 from by rw [hz]; rfl]
      iintro ⟨⟨HR, Hg, HS⟩, Ho, ⟨%d0, H0⟩, ⟨%d1, H1⟩, ⟨%d2, H2⟩, ⟨%d3, H3⟩, ⟨%d4, H4⟩, ⟨%d5, H5⟩, H6⟩
      iapply (sound_kernel7_A c (iblk7 V c 0 t) (iblk7 V c 1 t) ((hcond7_0 t).mpr hz) hc1)
      iframe H0 H1 HS
      iintro ⟨H0, H1, HS⟩
      iframe
    · rw [Φ7_pos V c _ hz]
      iintro ⟨⟨HR, Hg, HS⟩, Ho, ⟨%d0, H0⟩, ⟨%d1, H1⟩, ⟨%d2, H2⟩, ⟨%d3, H3⟩, ⟨%d4, H4⟩, ⟨%d5, H5⟩, H6⟩
      iapply (sound_kernel7_B c (iblk7 V c 0 t) (iblk7 V c 1 t) (acc7 V c t.val) (fun h => hz ((hcond7_0 t).mp h)) hc1)
      iframe H0 H1 HS
      iintro ⟨H0, H1, HS⟩
      iframe

theorem body_obligation7 (c : Dev nD) : BodyObligation (dat7 (F := F) V c) (defs₀ (F := F)) Variants.none () Set.univ := fun t => by
  rw [bigSep_W7, bigSep_W7]
  exact sound_body7 V c t

end

end Cert.Kernel.Fr

end
-- ==== Proof.LibRegion.lean ====
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.LibRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {nD : Nat} {τ : Topo} {sig : RefSig} {F : FTy → Type} [FloatOps F] {Λ₀ : Labels}

local notation "𝕄" => MT nD τ sig Unit (Elt F) ℕ (Pipeline.UD sig nD τ) ℕ

section Step

variable {cfg : Cfg sig Λ₀} {c : Dev nD} (dat : Dat τ (Elt F) Unit ℕ (Pipeline.UD sig nD τ) ℕ cfg c) (W : Valuation τ sig (Elt F))

/-- The contents after a kernel region entered at `W`: each window's array at its final contents, every other buffer as entered. -/
def stepW : Valuation τ sig (Elt F) := Pipeline.withArrays cfg.spec c W fun w => dat.arrAt w cfg.N

theorem stepW_arr (hinj : Function.Injective (Pipeline.arrRef cfg.spec)) (w : Fin cfg.W) :
    stepW dat W (Proc.devRef .tc (Pipeline.arrRef cfg.spec w)) = dat.arrAt w cfg.N :=
  Pipeline.withArrays_arr cfg.spec hinj c _ _ w

theorem stepW_of_ne (b : Ref sig .tc) (hb : ∀ w, Pipeline.arrRef cfg.spec w ≠ b) :
    stepW dat W (Proc.devRef .tc b) = W (Proc.devRef .tc b) :=
  Pipeline.withArrays_of_ne cfg.spec c _ _ b hb

/-- A region changes no buffer but its output windows' arrays. -/
theorem stepW_keep (hinj : Function.Injective (Pipeline.arrRef cfg.spec))
    (hA : ∀ w, dat.A w = W (Proc.devRef .tc (Pipeline.arrRef cfg.spec w))) (b : Ref sig .tc)
    (hin : ∀ w, Pipeline.arrRef cfg.spec w = b → (cfg.win w).isOut = false) :
    stepW dat W (Proc.devRef .tc b) = W (Proc.devRef .tc b) := by
  by_cases h : ∃ w, Pipeline.arrRef cfg.spec w = b
  · obtain ⟨w, rfl⟩ := h
    exact (stepW_arr dat W hinj w).trans ((dat.arrAt_in w (hin w rfl) _).trans (hA w))
  · exact stepW_of_ne dat W b fun w e => h ⟨w, e⟩

end Step

abbrev Rr (c : Dev nD) : sProp 𝕄 := iprop((∃ r, prngReg c r) ∗ ∃ W, owes (c : Thread nD τ) (0 : CellTallies nD τ sig Unit) W)

variable {P : Type} [Fintype P] (pcs : P → Pipeline.PCfg sig Λ₀ (Elt F)) (a : (p : P) → (pcs p).Adm)
  (pdats : (p : P) → (c : Dev nD) → Dat τ (Elt F) Unit ℕ (Pipeline.UD sig nD τ) ℕ (Pipeline.pin pcs a p) c)
  (defs₀ : Defs nD τ sig (Elt F) Λ₀) (L : GSem nD τ sig → Finset Unit) (lv : GSem nD τ sig → Unit → ℕ)

/-- A kernel region as one item of the program's run: entered with the buffers at `Wa`, left with them at `stepW`. -/
def regionSeg (p : P) (hw : Pipeline.WinFacts (Pipeline.pin pcs a p).spec)
    (hbp : ∀ w : Fin (pcs p).W, 0 < ((pcs p).spec w).block.numel)
    (hsw : ∀ (w : Fin (pcs p).W) (s : Fin ((pcs p).spec w).nbuf), (((pcs p).spec w).stage s).IsWhole)
    (harr : ∀ w, ((Pipeline.pin pcs a p).spec w).arr.IsWhole)
    (hpref : ∀ c : Dev nD, (BI.emp : sProp 𝕄) ⊢ Pipeline.prefHeld (pcs p).pre c (fun _ => fullShare) (a p).1)
    (hbody : ∀ c, BodyObligation (pdats p c) defs₀ Variants.none () Set.univ)
    (howed : ∀ c t, (pdats p c).owed t = 0) (hq : ∀ c w, (pdats p c).q w = fullShare)
    (hrec : ∀ c, (pdats p c).recorded 0 = Set.univ)
    (hΦ0 : ∀ c, Pipeline.ΦA (Pipeline.pin pcs a p).spec c ⊢ (pdats p c).Φ 0)
    (hΦN : ∀ c, (pdats p c).Φ (Fin.last _) ⊢ Pipeline.ΦA (Pipeline.pin pcs a p).spec c)
    (Wa : Dev nD → Valuation τ sig (Elt F))
    (hA : ∀ c w, (pdats p c).A w = Wa c (Proc.devRef .tc (Pipeline.arrRef (Pipeline.pin pcs a p).spec w))) :
    Pipeline.RegionSeg pcs a pdats () defs₀ Variants.none L lv p where
  win := hw.to₀
  block_pos := hbp
  stage_whole := hsw
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wa c) ∗ Rr c)
  post c := iprop(StableHlo.held (c : Thread nD τ) (Pipeline.ucRefs τ sig) (stepW (pdats p c) (Wa c)) ∗ Rr c)
  X c := iprop(∃ r, prngReg c r)
  Y c := iprop(∃ r, prngReg c r)
  Z c := Pipeline.unscopedRest (Ix := Unit) (Name := ℕ) (U := Pipeline.UD sig nD τ) (Lvl := ℕ) (Pipeline.pin pcs a p).spec c (fun b => Wa c b)
  hentry c := by
    rw [Pipeline.ownSems0_none]
    have hsplit := Pipeline.arrays_of_unscopedBufs (p := p) pcs a pdats hw harr c
      ((pdats p c).share_full (hq c)) (fun b => Wa c b) (hA c)
    rw [Pipeline.unscopedBufs_held] at hsplit
    unfold Pipeline.Dat.owesAt Pipeline.owesWithin
    rw [howed c 0]
    iintro ⟨⟨Hub, Hp, HO⟩, -, -⟩
    ihave H := hsplit $$ Hub
    icases H with ⟨Ha, Hrest⟩
    imodintro
    isplitl [Ha]; · iexact Ha
    isplitr; · iapply (hpref c); iempintro
    isplitl [HO]
    · icases HO with ⟨%W, HO⟩; iexists W; isplitr; · ipureintro; exact fun _ _ => Or.inl ((hrec c).symm ▸ Set.mem_univ _)
      iexact HO
    isplitl [Hp]; · iexact Hp
    iexact Hrest
  hin c := by
    refine .trans ?_ (hΦ0 c)
    unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) pcs a (Ix := Unit) (Name := ℕ) (U := Pipeline.UD sig nD τ) (Lvl := ℕ)
      hw harr c pdats ((pdats p c).share_full (hq c))
      (fun b => Wa c b) (fun b => stepW (pdats p c) (Wa c) b) ((pdats p c).arrAt · (Pipeline.pin pcs a p).N)
      (fun w => (stepW_arr (pdats p c) (Wa c) hw.arr_inj w).symm)
      (fun b hb => stepW_of_ne (pdats p c) (Wa c) b fun w e => hb (Finset.mem_image.mpr ⟨w, Finset.mem_univ _, e⟩))
    rw [Pipeline.unscopedBufs_held] at hjoin
    unfold Pipeline.Dat.owesAt Pipeline.owesWithin
    rw [howed c (Fin.last _)]
    iintro ⟨Ha, ⟨%W, -, HO⟩, HY, Hrest⟩
    imodintro
    isplitl [Ha Hrest]
    · iapply hjoin; isplitl [Ha] <;> iassumption
    isplitl [HY]; · iexact HY
    iexists W; iexact HO

end Cert.LibRegion

end
-- ==== Proof.KChain.lean ====
import proofs.«400973_j32538672234673_1_alg».proof.Proof.Gen.Kernel.Launch
import proofs.«400973_j32538672234673_1_alg».proof.Proof.Gen.Kernel.Skeleton
import proofs.«400973_j32538672234673_1_alg».proof.Proof.Gen.Kernel.Points
import proofs.«400973_j32538672234673_1_alg».proof.Proof.Gen.Kernel.Regions
import proofs.«400973_j32538672234673_1_alg».proof.Proof.KFrLin0
import proofs.«400973_j32538672234673_1_alg».proof.Proof.KFrLin1
import proofs.«400973_j32538672234673_1_alg».proof.Proof.KFrFus2
import proofs.«400973_j32538672234673_1_alg».proof.Proof.KFrLin3
import proofs.«400973_j32538672234673_1_alg».proof.Proof.KFrFus4
import proofs.«400973_j32538672234673_1_alg».proof.Proof.KFrLin5
import proofs.«400973_j32538672234673_1_alg».proof.Proof.KFrFus6
import proofs.«400973_j32538672234673_1_alg».proof.Proof.KFrPool7
import proofs.«400973_j32538672234673_1_alg».proof.Proof.LibRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen Cert.LibRegion
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- A core's buffers as the regions' proof data read them. -/
abbrev vr (W : Dev nD → Valuation τ sig (Elt F)) : (c : Dev nD) → (b : Ref sig .tc) → Buf (Elt F) ((c : Thread nD τ).loc b) :=
  fun c b => W c b

abbrev Wd0 : Dev nD → Valuation τ sig (Elt F) := fun c b => m (c, b)
abbrev Vr0 := vr (Wd0 m)

abbrev Wd1 : Dev nD → Valuation τ sig (Elt F) := fun c => StableHlo.after hostOps0 (Wd0 m c)
abbrev Vr1 := vr (Wd1 m)
theorem Wd1_keep (c : Dev nD) (r : Ref sig .tc) (h : r ∉ hostOps0_W) : Wd1 m c r = Wd0 m c r :=
  StableHlo.after_of_writes_sub hostOps0 _ hostOps0_writes h

def Wd2 (c : Dev nD) : Valuation τ sig (Elt F) := stepW (dat0 (Vr1 m) c) (Wd1 m c)
abbrev Vr2 := vr (Wd2 m)
theorem Wd2_arr (c : Dev nD) (w : Fin cfg0.W) :
    Wd2 m c (Proc.devRef .tc (Pipeline.arrRef spec0 w)) = (dat0 (Vr1 m) c).arrAt w cfg0.N :=
  stepW_arr _ _ launch0.win.arr_inj w
theorem Wd2_keep (c : Dev nD) (b : Ref sig .tc) (hb : b ≠ main_v25) :
    Wd2 m c (Proc.devRef .tc b) = Wd1 m c (Proc.devRef .tc b) :=
  stepW_keep _ _ launch0.win.arr_inj (A_eq0 (Vr1 m) c) b fun w e => by
    match w, e with
    | ⟨0, _⟩, _ => rfl
    | ⟨1, _⟩, _ => rfl
    | ⟨2, _⟩, _ => rfl
    | ⟨3, _⟩, e => exact absurd e.symm hb

def Wd3 (c : Dev nD) : Valuation τ sig (Elt F) := stepW (dat1 (Vr2 m) c) (Wd2 m c)
abbrev Vr3 := vr (Wd3 m)
theorem Wd3_arr (c : Dev nD) (w : Fin cfg1.W) :
    Wd3 m c (Proc.devRef .tc (Pipeline.arrRef spec1 w)) = (dat1 (Vr2 m) c).arrAt w cfg1.N :=
  stepW_arr _ _ launch1.win.arr_inj w
theorem Wd3_keep (c : Dev nD) (b : Ref sig .tc) (hb : b ≠ main_v26) :
    Wd3 m c (Proc.devRef .tc b) = Wd2 m c (Proc.devRef .tc b) :=
  stepW_keep _ _ launch1.win.arr_inj (A_eq1 (Vr2 m) c) b fun w e => by
    match w, e with
    | ⟨0, _⟩, _ => rfl
    | ⟨1, _⟩, _ => rfl
    | ⟨2, _⟩, _ => rfl
    | ⟨3, _⟩, e => exact absurd e.symm hb

abbrev Wd4 : Dev nD → Valuation τ sig (Elt F) := fun c => StableHlo.after hostOps2 (Wd3 m c)
abbrev Vr4 := vr (Wd4 m)
theorem Wd4_keep (c : Dev nD) (r : Ref sig .tc) (h : r ∉ hostOps2_W) : Wd4 m c r = Wd3 m c r :=
  StableHlo.after_of_writes_sub hostOps2 _ hostOps2_writes h

def Wd5 (c : Dev nD) : Valuation τ sig (Elt F) := stepW (dat2 (Vr4 m) c) (Wd4 m c)
abbrev Vr5 := vr (Wd5 m)
theorem Wd5_arr (c : Dev nD) (w : Fin cfg2.W) :
    Wd5 m c (Proc.devRef .tc (Pipeline.arrRef spec2 w)) = (dat2 (Vr4 m) c).arrAt w cfg2.N :=
  stepW_arr _ _ launch2.win.arr_inj w
theorem Wd5_keep (c : Dev nD) (b : Ref sig .tc) (hb : b ≠ main_v40) :
    Wd5 m c (Proc.devRef .tc b) = Wd4 m c (Proc.devRef .tc b) :=
  stepW_keep _ _ launch2.win.arr_inj (A_eq2 (Vr4 m) c) b fun w e => by
    match w, e with
    | ⟨0, _⟩, _ => rfl
    | ⟨1, _⟩, _ => rfl
    | ⟨2, _⟩, _ => rfl
    | ⟨3, _⟩, _ => rfl
    | ⟨4, _⟩, e => exact absurd e.symm hb

def Wd6 (c : Dev nD) : Valuation τ sig (Elt F) := stepW (dat3 (Vr5 m) c) (Wd5 m c)
abbrev Vr6 := vr (Wd6 m)
theorem Wd6_arr (c : Dev nD) (w : Fin cfg3.W) :
    Wd6 m c (Proc.devRef .tc (Pipeline.arrRef spec3 w)) = (dat3 (Vr5 m) c).arrAt w cfg3.N :=
  stepW_arr _ _ launch3.win.arr_inj w
theorem Wd6_keep (c : Dev nD) (b : Ref sig .tc) (hb : b ≠ main_v41) :
    Wd6 m c (Proc.devRef .tc b) = Wd5 m c (Proc.devRef .tc b) :=
  stepW_keep _ _ launch3.win.arr_inj (A_eq3 (Vr5 m) c) b fun w e => by
    match w, e with
    | ⟨0, _⟩, _ => rfl
    | ⟨1, _⟩, _ => rfl
    | ⟨2, _⟩, _ => rfl
    | ⟨3, _⟩, e => exact absurd e.symm hb

abbrev Wd7 : Dev nD → Valuation τ sig (Elt F) := fun c => StableHlo.after hostOps4 (Wd6 m c)
abbrev Vr7 := vr (Wd7 m)
theorem Wd7_keep (c : Dev nD) (r : Ref sig .tc) (h : r ∉ hostOps4_W) : Wd7 m c r = Wd6 m c r :=
  StableHlo.after_of_writes_sub hostOps4 _ hostOps4_writes h

def Wd8 (c : Dev nD) : Valuation τ sig (Elt F) := stepW (dat4 (Vr7 m) c) (Wd7 m c)
abbrev Vr8 := vr (Wd8 m)
theorem Wd8_arr (c : Dev nD) (w : Fin cfg4.W) :
    Wd8 m c (Proc.devRef .tc (Pipeline.arrRef spec4 w)) = (dat4 (Vr7 m) c).arrAt w cfg4.N :=
  stepW_arr _ _ launch4.win.arr_inj w
theorem Wd8_keep (c : Dev nD) (b : Ref sig .tc) (hb : b ≠ main_v55) :
    Wd8 m c (Proc.devRef .tc b) = Wd7 m c (Proc.devRef .tc b) :=
  stepW_keep _ _ launch4.win.arr_inj (A_eq4 (Vr7 m) c) b fun w e => by
    match w, e with
    | ⟨0, _⟩, _ => rfl
    | ⟨1, _⟩, _ => rfl
    | ⟨2, _⟩, _ => rfl
    | ⟨3, _⟩, _ => rfl
    | ⟨4, _⟩, e => exact absurd e.symm hb

def Wd9 (c : Dev nD) : Valuation τ sig (Elt F) := stepW (dat5 (Vr8 m) c) (Wd8 m c)
abbrev Vr9 := vr (Wd9 m)
theorem Wd9_arr (c : Dev nD) (w : Fin cfg5.W) :
    Wd9 m c (Proc.devRef .tc (Pipeline.arrRef spec5 w)) = (dat5 (Vr8 m) c).arrAt w cfg5.N :=
  stepW_arr _ _ launch5.win.arr_inj w
theorem Wd9_keep (c : Dev nD) (b : Ref sig .tc) (hb : b ≠ main_v56) :
    Wd9 m c (Proc.devRef .tc b) = Wd8 m c (Proc.devRef .tc b) :=
  stepW_keep _ _ launch5.win.arr_inj (A_eq5 (Vr8 m) c) b fun w e => by
    match w, e with
    | ⟨0, _⟩, _ => rfl
    | ⟨1, _⟩, _ => rfl
    | ⟨2, _⟩, _ => rfl
    | ⟨3, _⟩, e => exact absurd e.symm hb

abbrev Wd10 : Dev nD → Valuation τ sig (Elt F) := fun c => StableHlo.after hostOps6 (Wd9 m c)
abbrev Vr10 := vr (Wd10 m)
theorem Wd10_keep (c : Dev nD) (r : Ref sig .tc) (h : r ∉ hostOps6_W) : Wd10 m c r = Wd9 m c r :=
  StableHlo.after_of_writes_sub hostOps6 _ hostOps6_writes h

def Wd11 (c : Dev nD) : Valuation τ sig (Elt F) := stepW (dat6 (Vr10 m) c) (Wd10 m c)
abbrev Vr11 := vr (Wd11 m)
theorem Wd11_arr (c : Dev nD) (w : Fin cfg6.W) :
    Wd11 m c (Proc.devRef .tc (Pipeline.arrRef spec6 w)) = (dat6 (Vr10 m) c).arrAt w cfg6.N :=
  stepW_arr _ _ launch6.win.arr_inj w
theorem Wd11_keep (c : Dev nD) (b : Ref sig .tc) (hb : b ≠ main_v70) :
    Wd11 m c (Proc.devRef .tc b) = Wd10 m c (Proc.devRef .tc b) :=
  stepW_keep _ _ launch6.win.arr_inj (A_eq6 (Vr10 m) c) b fun w e => by
    match w, e with
    | ⟨0, _⟩, _ => rfl
    | ⟨1, _⟩, _ => rfl
    | ⟨2, _⟩, _ => rfl
    | ⟨3, _⟩, _ => rfl
    | ⟨4, _⟩, e => exact absurd e.symm hb

abbrev Wd12 : Dev nD → Valuation τ sig (Elt F) := fun c => StableHlo.after hostOps7 (Wd11 m c)
abbrev Vr12 := vr (Wd12 m)
theorem Wd12_keep (c : Dev nD) (r : Ref sig .tc) (h : r ∉ hostOps7_W) : Wd12 m c r = Wd11 m c r :=
  StableHlo.after_of_writes_sub hostOps7 _ hostOps7_writes h

def Wd13 (c : Dev nD) : Valuation τ sig (Elt F) := stepW (dat7 (Vr12 m) c) (Wd12 m c)
abbrev Vr13 := vr (Wd13 m)
theorem Wd13_arr (c : Dev nD) (w : Fin cfg7.W) :
    Wd13 m c (Proc.devRef .tc (Pipeline.arrRef spec7 w)) = (dat7 (Vr12 m) c).arrAt w cfg7.N :=
  stepW_arr _ _ launch7.win.arr_inj w
theorem Wd13_keep (c : Dev nD) (b : Ref sig .tc) (hb : b ≠ main_v72) :
    Wd13 m c (Proc.devRef .tc b) = Wd12 m c (Proc.devRef .tc b) :=
  stepW_keep _ _ launch7.win.arr_inj (A_eq7 (Vr12 m) c) b fun w e => by
    match w, e with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, e => exact absurd e.symm hb

/-- A buffer no host stretch writes and no region outputs ends at its launch contents. -/
theorem Wd13_launch (c : Dev nD) (b : Ref sig .tc)
    (h : b ∉ hostOps0_W ∧ b ∉ hostOps2_W ∧ b ∉ hostOps4_W ∧ b ∉ hostOps6_W ∧ b ∉ hostOps7_W ∧ b ≠ main_v25 ∧ b ≠ main_v26
      ∧ b ≠ main_v40 ∧ b ≠ main_v41 ∧ b ≠ main_v55 ∧ b ≠ main_v56 ∧ b ≠ main_v70 ∧ b ≠ main_v72) :
    Wd13 m c (Proc.devRef .tc b) = m ((c : Thread nD τ).loc b) := by
  obtain ⟨h0, h2, h4, h6, h7, r0, r1, r2, r3, r4, r5, r6, r7⟩ := h
  exact (Wd13_keep m c b r7).trans <| (Wd12_keep m c b h7).trans <| (Wd11_keep m c b r6).trans <| (Wd10_keep m c b h6).trans <| (Wd9_keep m c b r5).trans <| (Wd8_keep m c b r4).trans <| (Wd7_keep m c b h4).trans <| (Wd6_keep m c b r3).trans <| (Wd5_keep m c b r2).trans <| (Wd4_keep m c b h2).trans <| (Wd3_keep m c b r1).trans <| (Wd2_keep m c b r0).trans <| (Wd1_keep m c b h0)

def pdats : (p : Fin 8) → (c : Dev nD) → Dat τ (Elt F) Unit ℕ (Pipeline.UD sig nD τ) ℕ (Pipeline.pin (pcfgs (F := F)) adm p) c
  | ⟨0, _⟩ => fun c => dat0 (Vr1 m) c
  | ⟨1, _⟩ => fun c => dat1 (Vr2 m) c
  | ⟨2, _⟩ => fun c => dat2 (Vr4 m) c
  | ⟨3, _⟩ => fun c => dat3 (Vr5 m) c
  | ⟨4, _⟩ => fun c => dat4 (Vr7 m) c
  | ⟨5, _⟩ => fun c => dat5 (Vr8 m) c
  | ⟨6, _⟩ => fun c => dat6 (Vr10 m) c
  | ⟨7, _⟩ => fun c => dat7 (Vr12 m) c
abbrev 𝒱₀ : Variants := Variants.none
abbrev Lp : GSem nD τ sig → Finset Unit := fun _ => ∅
abbrev lvp : GSem nD τ sig → Unit → ℕ := fun _ _ => 0
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ Lp lvp :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem prefNone (p : Fin 8) (c : Dev nD) :
    (BI.emp : sProp 𝕄) ⊢ Pipeline.prefHeld (pcfgs (F := F) p).pre c (fun _ => fullShare) (adm p).1 := by
  unfold Pipeline.prefHeld; rw [show (Finset.univ : Finset (Fin 0)) = ∅ from rfl, BI.bigSep_empty]

def reg0 : Pipeline.RegionSeg (pcfgs (F := F)) adm (pdats m) () defs₀ 𝒱₀ Lp lvp 0 :=
  regionSeg _ _ _ _ _ _ 0 launch0.win launch0.block_pos launch0.stage_whole launch0.arr_whole (prefNone 0)
    (fun c => body_obligation0 (Vr1 m) c) (fun _ _ => rfl) (fun _ _ => rfl) (fun _ => rfl) (fun _ => .rfl) (fun _ => .rfl)
    (Wd1 m) (A_eq0 (Vr1 m))

def reg1 : Pipeline.RegionSeg (pcfgs (F := F)) adm (pdats m) () defs₀ 𝒱₀ Lp lvp 1 :=
  regionSeg _ _ _ _ _ _ 1 launch1.win launch1.block_pos launch1.stage_whole launch1.arr_whole (prefNone 1)
    (fun c => body_obligation1 (Vr2 m) c) (fun _ _ => rfl) (fun _ _ => rfl) (fun _ => rfl) (fun _ => .rfl) (fun _ => .rfl)
    (Wd2 m) (A_eq1 (Vr2 m))

def reg2 : Pipeline.RegionSeg (pcfgs (F := F)) adm (pdats m) () defs₀ 𝒱₀ Lp lvp 2 :=
  regionSeg _ _ _ _ _ _ 2 launch2.win launch2.block_pos launch2.stage_whole launch2.arr_whole (prefNone 2)
    (fun c => body_obligation2 (Vr4 m) c) (fun _ _ => rfl) (fun _ _ => rfl) (fun _ => rfl) (fun _ => .rfl) (fun _ => .rfl)
    (Wd4 m) (A_eq2 (Vr4 m))

def reg3 : Pipeline.RegionSeg (pcfgs (F := F)) adm (pdats m) () defs₀ 𝒱₀ Lp lvp 3 :=
  regionSeg _ _ _ _ _ _ 3 launch3.win launch3.block_pos launch3.stage_whole launch3.arr_whole (prefNone 3)
    (fun c => body_obligation3 (Vr5 m) c) (fun _ _ => rfl) (fun _ _ => rfl) (fun _ => rfl) (fun _ => .rfl) (fun _ => .rfl)
    (Wd5 m) (A_eq3 (Vr5 m))

def reg4 : Pipeline.RegionSeg (pcfgs (F := F)) adm (pdats m) () defs₀ 𝒱₀ Lp lvp 4 :=
  regionSeg _ _ _ _ _ _ 4 launch4.win launch4.block_pos launch4.stage_whole launch4.arr_whole (prefNone 4)
    (fun c => body_obligation4 (Vr7 m) c) (fun _ _ => rfl) (fun _ _ => rfl) (fun _ => rfl) (fun _ => .rfl) (fun _ => .rfl)
    (Wd7 m) (A_eq4 (Vr7 m))

def reg5 : Pipeline.RegionSeg (pcfgs (F := F)) adm (pdats m) () defs₀ 𝒱₀ Lp lvp 5 :=
  regionSeg _ _ _ _ _ _ 5 launch5.win launch5.block_pos launch5.stage_whole launch5.arr_whole (prefNone 5)
    (fun c => body_obligation5 (Vr8 m) c) (fun _ _ => rfl) (fun _ _ => rfl) (fun _ => rfl) (fun _ => .rfl) (fun _ => .rfl)
    (Wd8 m) (A_eq5 (Vr8 m))

def reg6 : Pipeline.RegionSeg (pcfgs (F := F)) adm (pdats m) () defs₀ 𝒱₀ Lp lvp 6 :=
  regionSeg _ _ _ _ _ _ 6 launch6.win launch6.block_pos launch6.stage_whole launch6.arr_whole (prefNone 6)
    (fun c => body_obligation6 (Vr10 m) c) (fun _ _ => rfl) (fun _ _ => rfl) (fun _ => rfl) (fun _ => .rfl) (fun _ => .rfl)
    (Wd10 m) (A_eq6 (Vr10 m))

def reg7 : Pipeline.RegionSeg (pcfgs (F := F)) adm (pdats m) () defs₀ 𝒱₀ Lp lvp 7 :=
  regionSeg _ _ _ _ _ _ 7 launch7.win launch7.block_pos launch7.stage_whole launch7.arr_whole (prefNone 7)
    (fun c => body_obligation7 (Vr12 m) c) (fun _ _ => rfl) (fun _ _ => rfl) (fun _ => rfl) (Φ7_first (Vr12 m)) (Φ7_last (Vr12 m))
    (Wd12 m) (A_eq7 (Vr12 m))

abbrev segs : List (Pipeline.Seg (pcfgs (F := F)) adm (pdats m) () defs₀ 𝒱₀ Lp lvp) :=
  [ .host (hseg hostOps0 hostOps0_sub hostOps0_fresh (Wd0 m)),
    .region (reg0 m),
    .region (reg1 m),
    .host (hseg hostOps2 hostOps2_sub hostOps2_fresh (Wd3 m)),
    .region (reg2 m),
    .region (reg3 m),
    .host (hseg hostOps4 hostOps4_sub hostOps4_fresh (Wd6 m)),
    .region (reg4 m),
    .region (reg5 m),
    .host (hseg hostOps6 hostOps6_sub hostOps6_fresh (Wd9 m)),
    .region (reg6 m),
    .host (hseg hostOps7 hostOps7_sub hostOps7_fresh (Wd11 m)),
    .region (reg7 m) ]

theorem main_run (c : Dev nD) : main (F := F) c = Pipeline.Seg.run (segs m) := by
  rw [main_chain c, Pipeline.Seg.run_eq_chain]
  rfl

/-- Every weakly fair execution of @main terminates, nothing faulting, with the buffers at `Wd13`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Wd13 m c b) :=
  Pipeline.θ_run_regions_kit (pcfgs (F := F)) adm (pdats m) () cellOf_inj embL defs₀ 𝒱₀ Lp lvp m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wd0 m c) ∗ Rr c))
    (Tₙ := fun c => iprop(StableHlo.held (c : Thread nD τ) (Pipeline.ucRefs τ sig) (Wd13 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach Lp lvp fun c => ?_
      rw [show unscopedBufs c (fun b => m ((c : Thread nD τ).loc b)) = StableHlo.held (c : Thread nD τ) (Pipeline.ucRefs τ sig) (Wd0 m c)
        from Pipeline.unscopedBufs_held c (Wd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd13 m c b)
    (hfin := fun c s' => by
      iintro ⟨⟨Hh, -⟩, HSI⟩
      unfold StableHlo.held
      imodintro
      iapply (pointsTo_read_all (Pipeline.ucRefs τ sig) (fun b => (((c : Thread nD τ)).1, b)) (Wd13 m c) s')
      isplitl [Hh] <;> iassumption)
    (hQ := fun s h c => h c)

/-- A memory that holds the buffers at `Wd13` holds every argument array at its launch contents. -/
theorem args_kept (c : Dev nD) (M : (ℓ : Loc nD τ sig) → Buf (Elt F) ℓ)
    (h : ∀ b ∈ Pipeline.ucRefs τ sig, M (((c : Thread nD τ)).1, b) = Wd13 m c b) :
      M ((c.tc : Thread nD τ).loc main_arg0) = m ((c.tc : Thread nD τ).loc main_arg0)
      ∧ M ((c.tc : Thread nD τ).loc main_arg1) = m ((c.tc : Thread nD τ).loc main_arg1)
      ∧ M ((c.tc : Thread nD τ).loc main_arg2) = m ((c.tc : Thread nD τ).loc main_arg2)
      ∧ M ((c.tc : Thread nD τ).loc main_arg3) = m ((c.tc : Thread nD τ).loc main_arg3)
      ∧ M ((c.tc : Thread nD τ).loc main_arg4) = m ((c.tc : Thread nD τ).loc main_arg4)
      ∧ M ((c.tc : Thread nD τ).loc main_arg5) = m ((c.tc : Thread nD τ).loc main_arg5)
      ∧ M ((c.tc : Thread nD τ).loc main_arg6) = m ((c.tc : Thread nD τ).loc main_arg6)
      ∧ M ((c.tc : Thread nD τ).loc main_arg7) = m ((c.tc : Thread nD τ).loc main_arg7)
      ∧ M ((c.tc : Thread nD τ).loc main_arg8) = m ((c.tc : Thread nD τ).loc main_arg8)
      ∧ M ((c.tc : Thread nD τ).loc main_arg9) = m ((c.tc : Thread nD τ).loc main_arg9)
      ∧ M ((c.tc : Thread nD τ).loc main_arg10) = m ((c.tc : Thread nD τ).loc main_arg10)
      ∧ M ((c.tc : Thread nD τ).loc main_arg11) = m ((c.tc : Thread nD τ).loc main_arg11)
      ∧ M ((c.tc : Thread nD τ).loc main_arg12) = m ((c.tc : Thread nD τ).loc main_arg12)
      ∧ M ((c.tc : Thread nD τ).loc main_arg13) = m ((c.tc : Thread nD τ).loc main_arg13)
      ∧ M ((c.tc : Thread nD τ).loc main_arg14) = m ((c.tc : Thread nD τ).loc main_arg14)
      ∧ M ((c.tc : Thread nD τ).loc main_arg15) = m ((c.tc : Thread nD τ).loc main_arg15) :=
  have key (b : Ref sig .tc) (hu : ¬ (Proc.devRef .tc b : DevRef τ sig).isScoped) hk :
      M ((c.tc : Thread nD τ).loc b) = m ((c.tc : Thread nD τ).loc b) := (h _ (mem_uc b hu)).trans (Wd13_launch m c b hk)
  ⟨key main_arg0 (by decide) (by decide),
   key main_arg1 (by decide) (by decide),
   key main_arg2 (by decide) (by decide),
   key main_arg3 (by decide) (by decide),
   key main_arg4 (by decide) (by decide),
   key main_arg5 (by decide) (by decide),
   key main_arg6 (by decide) (by decide),
   key main_arg7 (by decide) (by decide),
   key main_arg8 (by decide) (by decide),
   key main_arg9 (by decide) (by decide),
   key main_arg10 (by decide) (by decide),
   key main_arg11 (by decide) (by decide),
   key main_arg12 (by decide) (by decide),
   key main_arg13 (by decide) (by decide),
   key main_arg14 (by decide) (by decide),
   key main_arg15 (by decide) (by decide)⟩

end Cert.Kernel.Fr

end
-- ==== Proof.FrLin0.lean ====
import proofs.«400973_j32538672234673_1_alg».proof.Proof.Gen.KernelIdeal.Launch
import proofs.«400973_j32538672234673_1_alg».proof.Proof.Gen.KernelIdeal.Skeleton
import proofs.«400973_j32538672234673_1_alg».proof.Proof.Gen.KernelIdeal.Points
import Idealize.ShloMosaic.Lib.Pipeline.FrameBody
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S5000x128 := Rect.unit (s := S5000x128) ![0, 0] S5000x128.size inb_S5000x128_S5000x128_0_0
abbrev rW0 : Rect S128x128 := Rect.unit (s := S128x128) ![0, 0] S128x128.size inb_S128x128_S128x128_0_0
abbrev rB0 : Rect S128 := Rect.unit (s := S128) ![0] S128.size inb_S128_S128_0

def out0_3 (x0 : Vec F S5000x128 .f32) (x1 : Vec F S128x128 .f32) (x2 : Vec F S128 .f32) : Vec F S5000x128 .f32 :=
  View.canon [⟨rA0, k0_pay1 (View.ld x0 rA0) (View.ld x1 rW0) (View.ld x2 rB0)⟩]

-- The body's triple, its inputs' contents given up to an equation, so that it applies to the obligation as the library states it.
theorem sound_kernel0 (c : Dev nD) (i : grid0.Coords)
    (arg1 : Memref sig .tc .vmem S5000x128 .f32) (harg1 : arg1.IsWhole) (arg2 : Memref sig .tc .vmem S128x128 .f32) (harg2 : arg2.IsWhole)
    (arg3 : Memref sig .tc .vmem S128 .f32) (harg3 : arg3.IsWhole) (arg4 : Memref sig .tc .vmem S5000x128 .f32) (harg4 : arg4.IsWhole)
    {D0 D1 D2 D3 : Type} {b0 : D0 → _} {b1 : D1 → _} {b2 : D2 → _} {b3 : D3 → _} {x0 x1 x2 y} (h0 : ∀ d, b0 d = x0) (h1 : ∀ d, b1 d = x1) (h2 : ∀ d, b2 d = x2)
    (hy : y = out0_3 x0 x1 x2) (R Ro : sProp 𝕄) :
    iprop(R ∗ Ro ∗ (∃ d, owns c arg1 fullShare (b0 d)) ∗ (∃ d, owns c arg2 fullShare (b1 d))
        ∗ (∃ d, owns c arg3 fullShare (b2 d)) ∗ (∃ d, owns c arg4 fullShare (b3 d)))
      ⊢ wp frame (wpE (defs₀ (F := F)) Variants.none c none) Set.univ (cc0__linear_kernel i arg1 harg1 arg2 harg2 arg3 harg3 arg4 harg4) fun _ =>
        iprop(R ∗ Ro ∗ owns c arg1 fullShare x0 ∗ owns c arg2 fullShare x1
          ∗ owns c arg3 fullShare x2 ∗ owns c arg4 fullShare y) := by
  subst hy
  simp only [cc0__linear_kernel_eq_skeleton, h0, h1, h2]; unfold cc0__linear_kernel_skel owns
  iintro ⟨HR, Ho, ⟨%_, %f0, %hf0, H0⟩, ⟨%_, %f1, %hf1, H1⟩, ⟨%_, %f2, %hf2, H2⟩, ⟨%_, %f3, -, H3⟩⟩
  subst hf0 hf1 hf2
  sl_exec
  sl_step
  iframe
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (View.cover_of_tiled _ S5000x128.size (by rfl))

def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl
theorem after0_3 (c : Dev nD) (t : Fin cfg0.N) :
    (dat0 V c).after 3 t = out0_3 (iblk0 V c 0 t) (iblk0 V c 1 t) (iblk0 V c 2 t) := by dsimp only [dat0]

-- On an input window `before` and `after` agree, so the triple's precondition is read at the values its postcondition names.
theorem before0 (c : Dev nD) (t : Fin cfg0.N) : ∀ w, (cfg0.win w).isOut = false → ∀ d, (dat0 V c).before w t d = (dat0 V c).after w t
  | 0, _, d | 1, _, d | 2, _, d => ((dat0 V c).before_in_eq_fetched _ rfl (fun _ => rfl) (fun _ _ _ => rfl) (fun _ => rfl) t d).trans rfl
  | 3, h, _ => nomatch h

theorem body_obligation0 (c : Dev nD) : BodyObligation (dat0 (F := F) V c) (defs₀ (F := F)) Variants.none () Set.univ := fun t => by
  rw [bigSep_W0, bigSep_W0]
  show _ ⊢ wp _ _ _ (bodyAt0 t) _
  exact sound_kernel0 c (grid0.coords t) _ _ _ _ _ _ _ _ (before0 V c t 0 rfl) (before0 V c t 1 rfl) (before0 V c t 2 rfl) (after0_3 V c t) _ _

end

end Cert.KernelIdeal.Fr

end
-- ==== Proof.FrLin1.lean ====
import proofs.«400973_j32538672234673_1_alg».proof.Proof.Gen.KernelIdeal.Launch
import proofs.«400973_j32538672234673_1_alg».proof.Proof.Gen.KernelIdeal.Skeleton
import proofs.«400973_j32538672234673_1_alg».proof.Proof.Gen.KernelIdeal.Points
import Idealize.ShloMosaic.Lib.Pipeline.FrameBody
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA1 : Rect S5000x128 := Rect.unit (s := S5000x128) ![0, 0] S5000x128.size inb_S5000x128_S5000x128_0_0
abbrev rW1 : Rect S128x128 := Rect.unit (s := S128x128) ![0, 0] S128x128.size inb_S128x128_S128x128_0_0
abbrev rB1 : Rect S128 := Rect.unit (s := S128) ![0] S128.size inb_S128_S128_0

def out1_3 (x0 : Vec F S5000x128 .f32) (x1 : Vec F S128x128 .f32) (x2 : Vec F S128 .f32) : Vec F S5000x128 .f32 :=
  View.canon [⟨rA1, k1_pay1 (View.ld x0 rA1) (View.ld x1 rW1) (View.ld x2 rB1)⟩]

-- The body's triple, its inputs' contents given up to an equation, so that it applies to the obligation as the library states it.
theorem sound_kernel1 (c : Dev nD) (i : grid1.Coords)
    (arg1 : Memref sig .tc .vmem S5000x128 .f32) (harg1 : arg1.IsWhole) (arg2 : Memref sig .tc .vmem S128x128 .f32) (harg2 : arg2.IsWhole)
    (arg3 : Memref sig .tc .vmem S128 .f32) (harg3 : arg3.IsWhole) (arg4 : Memref sig .tc .vmem S5000x128 .f32) (harg4 : arg4.IsWhole)
    {D0 D1 D2 D3 : Type} {b0 : D0 → _} {b1 : D1 → _} {b2 : D2 → _} {b3 : D3 → _} {x0 x1 x2 y} (h0 : ∀ d, b0 d = x0) (h1 : ∀ d, b1 d = x1) (h2 : ∀ d, b2 d = x2)
    (hy : y = out1_3 x0 x1 x2) (R Ro : sProp 𝕄) :
    iprop(R ∗ Ro ∗ (∃ d, owns c arg1 fullShare (b0 d)) ∗ (∃ d, owns c arg2 fullShare (b1 d))
        ∗ (∃ d, owns c arg3 fullShare (b2 d)) ∗ (∃ d, owns c arg4 fullShare (b3 d)))
      ⊢ wp frame (wpE (defs₀ (F := F)) Variants.none c none) Set.univ (cc1__linear_kernel i arg1 harg1 arg2 harg2 arg3 harg3 arg4 harg4) fun _ =>
        iprop(R ∗ Ro ∗ owns c arg1 fullShare x0 ∗ owns c arg2 fullShare x1
          ∗ owns c arg3 fullShare x2 ∗ owns c arg4 fullShare y) := by
  subst hy
  simp only [cc1__linear_kernel_eq_skeleton, h0, h1, h2]; unfold cc1__linear_kernel_skel owns
  iintro ⟨HR, Ho, ⟨%_, %f0, %hf0, H0⟩, ⟨%_, %f1, %hf1, H1⟩, ⟨%_, %f2, %hf2, H2⟩, ⟨%_, %f3, -, H3⟩⟩
  subst hf0 hf1 hf2
  sl_exec
  sl_step
  iframe
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (View.cover_of_tiled _ S5000x128.size (by rfl))

def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl
theorem after1_3 (c : Dev nD) (t : Fin cfg1.N) :
    (dat1 V c).after 3 t = out1_3 (iblk1 V c 0 t) (iblk1 V c 1 t) (iblk1 V c 2 t) := by dsimp only [dat1]

-- On an input window `before` and `after` agree, so the triple's precondition is read at the values its postcondition names.
theorem before1 (c : Dev nD) (t : Fin cfg1.N) : ∀ w, (cfg1.win w).isOut = false → ∀ d, (dat1 V c).before w t d = (dat1 V c).after w t
  | 0, _, d | 1, _, d | 2, _, d => ((dat1 V c).before_in_eq_fetched _ rfl (fun _ => rfl) (fun _ _ _ => rfl) (fun _ => rfl) t d).trans rfl
  | 3, h, _ => nomatch h

theorem body_obligation1 (c : Dev nD) : BodyObligation (dat1 (F := F) V c) (defs₀ (F := F)) Variants.none () Set.univ := fun t => by
  rw [bigSep_W1, bigSep_W1]
  show _ ⊢ wp _ _ _ (bodyAt1 t) _
  exact sound_kernel1 c (grid1.coords t) _ _ _ _ _ _ _ _ (before1 V c t 0 rfl) (before1 V c t 1 rfl) (before1 V c t 2 rfl) (after1_3 V c t) _ _

end

end Cert.KernelIdeal.Fr

end
-- ==== Proof.FrFus2.lean ====
import proofs.«400973_j32538672234673_1_alg».proof.Proof.Gen.KernelIdeal.Launch
import proofs.«400973_j32538672234673_1_alg».proof.Proof.Gen.KernelIdeal.Skeleton
import proofs.«400973_j32538672234673_1_alg».proof.Proof.Gen.KernelIdeal.Points
import Idealize.ShloMosaic.Lib.Pipeline.FrameBody
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rA2 : Rect S5000x128 := Rect.unit (s := S5000x128) ![0, 0] S5000x128.size inb_S5000x128_S5000x128_0_0
abbrev rD2 : Rect S5000x1 := Rect.unit (s := S5000x1) ![0, 0] S5000x1.size inb_S5000x1_S5000x1_0_0
abbrev rB2 : Rect S128 := Rect.unit (s := S128) ![0] S128.size inb_S128_S128_0

def out2_4 (x0 x1 : Vec F S5000x128 .f32) (x2 : Vec F S5000x1 .f32) (x3 : Vec F S128 .f32) : Vec F S5000x128 .f32 :=
  View.canon [⟨rA2, k2_pay1 (View.ld x0 rA2) (View.ld x1 rA2) (View.ld x2 rD2) (View.ld x3 rB2)⟩]

-- The body's triple, its inputs' contents given up to an equation, so that it applies to the obligation as the library states it.
theorem sound_kernel2 (c : Dev nD) (i : grid2.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S128 .f32) (harg4 : arg4.IsWhole)
    (arg5 : Memref sig .tc .vmem S5000x128 .f32) (harg5 : arg5.IsWhole)
    {D0 D1 D2 D3 D4 : Type} {b0 : D0 → _} {b1 : D1 → _} {b2 : D2 → _} {b3 : D3 → _} {b4 : D4 → _} {x0 x1 x2 x3 y}
    (h0 : ∀ d, b0 d = x0) (h1 : ∀ d, b1 d = x1) (h2 : ∀ d, b2 d = x2) (h3 : ∀ d, b3 d = x3) (hy : y = out2_4 x0 x1 x2 x3) (R Ro : sProp 𝕄) :
    iprop(R ∗ Ro ∗ (∃ d, owns c arg1 fullShare (b0 d)) ∗ (∃ d, owns c arg2 fullShare (b1 d))
        ∗ (∃ d, owns c arg3 fullShare (b2 d)) ∗ (∃ d, owns c arg4 fullShare (b3 d))
        ∗ (∃ d, owns c arg5 fullShare (b4 d)))
      ⊢ wp frame (wpE (defs₀ (F := F)) Variants.none c none) Set.univ (cc2__fused_update_kernel i arg1 harg1 arg2 harg2 arg3 harg3 arg4 harg4 arg5 harg5) fun _ =>
        iprop(R ∗ Ro ∗ owns c arg1 fullShare x0 ∗ owns c arg2 fullShare x1
          ∗ owns c arg3 fullShare x2 ∗ owns c arg4 fullShare x3 ∗ owns c arg5 fullShare y) := by
  subst hy
  simp only [cc2__fused_update_kernel_eq_skeleton, h0, h1, h2, h3]; unfold cc2__fused_update_kernel_skel owns
  iintro ⟨HR, Ho, ⟨%_, %f0, %hf0, H0⟩, ⟨%_, %f1, %hf1, H1⟩, ⟨%_, %f2, %hf2, H2⟩, ⟨%_, %f3, %hf3, H3⟩, ⟨%_, %f4, -, H4⟩⟩
  subst hf0 hf1 hf2 hf3
  sl_exec
  sl_step
  iframe
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; iframe; ipureintro
  exact View.read_writes_eq_canon _ _ _ (View.cover_of_tiled _ S5000x128.size (by rfl))

def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := rfl
theorem after2_4 (c : Dev nD) (t : Fin cfg2.N) :
    (dat2 V c).after 4 t = out2_4 (iblk2 V c 0 t) (iblk2 V c 1 t) (iblk2 V c 2 t) (iblk2 V c 3 t) := by dsimp only [dat2]

-- On an input window `before` and `after` agree, so the triple's precondition is read at the values its postcondition names.
theorem before2 (c : Dev nD) (t : Fin cfg2.N) : ∀ w, (cfg2.win w).isOut = false → ∀ d, (dat2 V c).before w t d = (dat2 V c).after w t
  | 0, _, d | 1, _, d | 2, _, d | 3, _, d => ((dat2 V c).before_in_eq_fetched _ rfl (fun _ => rfl) (fun _ _ _ => rfl) (fun _ => rfl) t d).trans rfl
  | 4, h, _ => nomatch h

theorem body_obligation2 (c : Dev nD) : BodyObligation (dat2 (F := F) V c) (defs₀ (F := F)) Variants.none () Set.univ := fun t => by
  rw [bigSep_W2, bigSep_W2]
  show _ ⊢ wp _ _ _ (bodyAt2 t) _
  exact sound_kernel2 c (grid2.coords t) _ _ _ _ _ _ _ _ _ _
    (before2 V c t 0 rfl) (before2 V c t 1 rfl) (before2 V c t 2 rfl) (before2 V c t 3 rfl) (after2_4 V c t) _ _

end

end Cert.KernelIdeal.Fr

end
-- ==== Proof.FrLin3.lean ====
import proofs.«400973_j32538672234673_1_alg».proof.Proof.Gen.KernelIdeal.Launch
import proofs.«400973_j32538672234673_1_alg».proof.Proof.Gen.KernelIdeal.Skeleton
import proofs.«400973_j32538672234673_1_alg».proof.Proof.Gen.KernelIdeal.Points
import Idealize.ShloMosaic.Lib.Pipeline.FrameBody
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rA3 : Rect S5000x128 := Rect.unit (s := S5000x128) ![0, 0] S5000x128.size inb_S5000x128_S5000x128_0_0
abbrev rW3 : Rect S128x128 := Rect.unit (s := S128x128) ![0, 0] S128x128.size inb_S128x128_S128x128_0_0
abbrev rB3 : Rect S128 := Rect.unit (s := S128) ![0] S128.size inb_S128_S128_0

def out3_3 (x0 : Vec F S5000x128 .f32) (x1 : Vec F S128x128 .f32) (x2 : Vec F S128 .f32) : Vec F S5000x128 .f32 :=
  View.canon [⟨rA3, k3_pay1 (View.ld x0 rA3) (View.ld x1 rW3) (View.ld x2 rB3)⟩]

-- The body's triple, its inputs' contents given up to an equation, so that it applies to the obligation as the library states it.
theorem sound_kernel3 (c : Dev nD) (i : grid3.Coords)
    (arg1 : Memref sig .tc .vmem S5000x128 .f32) (harg1 : arg1.IsWhole) (arg2 : Memref sig .tc .vmem S128x128 .f32) (harg2 : arg2.IsWhole)
    (arg3 : Memref sig .tc .vmem S128 .f32) (harg3 : arg3.IsWhole) (arg4 : Memref sig .tc .vmem S5000x128 .f32) (harg4 : arg4.IsWhole)
    {D0 D1 D2 D3 : Type} {b0 : D0 → _} {b1 : D1 → _} {b2 : D2 → _} {b3 : D3 → _} {x0 x1 x2 y} (h0 : ∀ d, b0 d = x0) (h1 : ∀ d, b1 d = x1) (h2 : ∀ d, b2 d = x2)
    (hy : y = out3_3 x0 x1 x2) (R Ro : sProp 𝕄) :
    iprop(R ∗ Ro ∗ (∃ d, owns c arg1 fullShare (b0 d)) ∗ (∃ d, owns c arg2 fullShare (b1 d))
        ∗ (∃ d, owns c arg3 fullShare (b2 d)) ∗ (∃ d, owns c arg4 fullShare (b3 d)))
      ⊢ wp frame (wpE (defs₀ (F := F)) Variants.none c none) Set.univ (cc3__linear_kernel i arg1 harg1 arg2 harg2 arg3 harg3 arg4 harg4) fun _ =>
        iprop(R ∗ Ro ∗ owns c arg1 fullShare x0 ∗ owns c arg2 fullShare x1
          ∗ owns c arg3 fullShare x2 ∗ owns c arg4 fullShare y) := by
  subst hy
  simp only [cc3__linear_kernel_eq_skeleton, h0, h1, h2]; unfold cc3__linear_kernel_skel owns
  iintro ⟨HR, Ho, ⟨%_, %f0, %hf0, H0⟩, ⟨%_, %f1, %hf1, H1⟩, ⟨%_, %f2, %hf2, H2⟩, ⟨%_, %f3, -, H3⟩⟩
  subst hf0 hf1 hf2
  sl_exec
  sl_step
  iframe
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (View.cover_of_tiled _ S5000x128.size (by rfl))

def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := rfl
theorem after3_3 (c : Dev nD) (t : Fin cfg3.N) :
    (dat3 V c).after 3 t = out3_3 (iblk3 V c 0 t) (iblk3 V c 1 t) (iblk3 V c 2 t) := by dsimp only [dat3]

-- On an input window `before` and `after` agree, so the triple's precondition is read at the values its postcondition names.
theorem before3 (c : Dev nD) (t : Fin cfg3.N) : ∀ w, (cfg3.win w).isOut = false → ∀ d, (dat3 V c).before w t d = (dat3 V c).after w t
  | 0, _, d | 1, _, d | 2, _, d => ((dat3 V c).before_in_eq_fetched _ rfl (fun _ => rfl) (fun _ _ _ => rfl) (fun _ => rfl) t d).trans rfl
  | 3, h, _ => nomatch h

theorem body_obligation3 (c : Dev nD) : BodyObligation (dat3 (F := F) V c) (defs₀ (F := F)) Variants.none () Set.univ := fun t => by
  rw [bigSep_W3, bigSep_W3]
  show _ ⊢ wp _ _ _ (bodyAt3 t) _
  exact sound_kernel3 c (grid3.coords t) _ _ _ _ _ _ _ _ (before3 V c t 0 rfl) (before3 V c t 1 rfl) (before3 V c t 2 rfl) (after3_3 V c t) _ _

end

end Cert.KernelIdeal.Fr

end
-- ==== Proof.FrFus4.lean ====
import proofs.«400973_j32538672234673_1_alg».proof.Proof.Gen.KernelIdeal.Launch
import proofs.«400973_j32538672234673_1_alg».proof.Proof.Gen.KernelIdeal.Skeleton
import proofs.«400973_j32538672234673_1_alg».proof.Proof.Gen.KernelIdeal.Points
import Idealize.ShloMosaic.Lib.Pipeline.FrameBody
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rA4 : Rect S5000x128 := Rect.unit (s := S5000x128) ![0, 0] S5000x128.size inb_S5000x128_S5000x128_0_0
abbrev rD4 : Rect S5000x1 := Rect.unit (s := S5000x1) ![0, 0] S5000x1.size inb_S5000x1_S5000x1_0_0
abbrev rB4 : Rect S128 := Rect.unit (s := S128) ![0] S128.size inb_S128_S128_0

def out4_4 (x0 x1 : Vec F S5000x128 .f32) (x2 : Vec F S5000x1 .f32) (x3 : Vec F S128 .f32) : Vec F S5000x128 .f32 :=
  View.canon [⟨rA4, k4_pay1 (View.ld x0 rA4) (View.ld x1 rA4) (View.ld x2 rD4) (View.ld x3 rB4)⟩]

-- The body's triple, its inputs' contents given up to an equation, so that it applies to the obligation as the library states it.
theorem sound_kernel4 (c : Dev nD) (i : grid4.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S128 .f32) (harg4 : arg4.IsWhole)
    (arg5 : Memref sig .tc .vmem S5000x128 .f32) (harg5 : arg5.IsWhole)
    {D0 D1 D2 D3 D4 : Type} {b0 : D0 → _} {b1 : D1 → _} {b2 : D2 → _} {b3 : D3 → _} {b4 : D4 → _} {x0 x1 x2 x3 y}
    (h0 : ∀ d, b0 d = x0) (h1 : ∀ d, b1 d = x1) (h2 : ∀ d, b2 d = x2) (h3 : ∀ d, b3 d = x3) (hy : y = out4_4 x0 x1 x2 x3) (R Ro : sProp 𝕄) :
    iprop(R ∗ Ro ∗ (∃ d, owns c arg1 fullShare (b0 d)) ∗ (∃ d, owns c arg2 fullShare (b1 d))
        ∗ (∃ d, owns c arg3 fullShare (b2 d)) ∗ (∃ d, owns c arg4 fullShare (b3 d))
        ∗ (∃ d, owns c arg5 fullShare (b4 d)))
      ⊢ wp frame (wpE (defs₀ (F := F)) Variants.none c none) Set.univ (cc4__fused_update_kernel i arg1 harg1 arg2 harg2 arg3 harg3 arg4 harg4 arg5 harg5) fun _ =>
        iprop(R ∗ Ro ∗ owns c arg1 fullShare x0 ∗ owns c arg2 fullShare x1
          ∗ owns c arg3 fullShare x2 ∗ owns c arg4 fullShare x3 ∗ owns c arg5 fullShare y) := by
  subst hy
  simp only [cc4__fused_update_kernel_eq_skeleton, h0, h1, h2, h3]; unfold cc4__fused_update_kernel_skel owns
  iintro ⟨HR, Ho, ⟨%_, %f0, %hf0, H0⟩, ⟨%_, %f1, %hf1, H1⟩, ⟨%_, %f2, %hf2, H2⟩, ⟨%_, %f3, %hf3, H3⟩, ⟨%_, %f4, -, H4⟩⟩
  subst hf0 hf1 hf2 hf3
  sl_exec
  sl_step
  iframe
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; iframe; ipureintro
  exact View.read_writes_eq_canon _ _ _ (View.cover_of_tiled _ S5000x128.size (by rfl))

def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := rfl
theorem after4_4 (c : Dev nD) (t : Fin cfg4.N) :
    (dat4 V c).after 4 t = out4_4 (iblk4 V c 0 t) (iblk4 V c 1 t) (iblk4 V c 2 t) (iblk4 V c 3 t) := by dsimp only [dat4]

-- On an input window `before` and `after` agree, so the triple's precondition is read at the values its postcondition names.
theorem before4 (c : Dev nD) (t : Fin cfg4.N) : ∀ w, (cfg4.win w).isOut = false → ∀ d, (dat4 V c).before w t d = (dat4 V c).after w t
  | 0, _, d | 1, _, d | 2, _, d | 3, _, d => ((dat4 V c).before_in_eq_fetched _ rfl (fun _ => rfl) (fun _ _ _ => rfl) (fun _ => rfl) t d).trans rfl
  | 4, h, _ => nomatch h

theorem body_obligation4 (c : Dev nD) : BodyObligation (dat4 (F := F) V c) (defs₀ (F := F)) Variants.none () Set.univ := fun t => by
  rw [bigSep_W4, bigSep_W4]
  show _ ⊢ wp _ _ _ (bodyAt4 t) _
  exact sound_kernel4 c (grid4.coords t) _ _ _ _ _ _ _ _ _ _
    (before4 V c t 0 rfl) (before4 V c t 1 rfl) (before4 V c t 2 rfl) (before4 V c t 3 rfl) (after4_4 V c t) _ _

end

end Cert.KernelIdeal.Fr

end
-- ==== Proof.FrLin5.lean ====
import proofs.«400973_j32538672234673_1_alg».proof.Proof.Gen.KernelIdeal.Launch
import proofs.«400973_j32538672234673_1_alg».proof.Proof.Gen.KernelIdeal.Skeleton
import proofs.«400973_j32538672234673_1_alg».proof.Proof.Gen.KernelIdeal.Points
import Idealize.ShloMosaic.Lib.Pipeline.FrameBody
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rA5 : Rect S5000x128 := Rect.unit (s := S5000x128) ![0, 0] S5000x128.size inb_S5000x128_S5000x128_0_0
abbrev rW5 : Rect S128x128 := Rect.unit (s := S128x128) ![0, 0] S128x128.size inb_S128x128_S128x128_0_0
abbrev rB5 : Rect S128 := Rect.unit (s := S128) ![0] S128.size inb_S128_S128_0

def out5_3 (x0 : Vec F S5000x128 .f32) (x1 : Vec F S128x128 .f32) (x2 : Vec F S128 .f32) : Vec F S5000x128 .f32 :=
  View.canon [⟨rA5, k5_pay1 (View.ld x0 rA5) (View.ld x1 rW5) (View.ld x2 rB5)⟩]

-- The body's triple, its inputs' contents given up to an equation, so that it applies to the obligation as the library states it.
theorem sound_kernel5 (c : Dev nD) (i : grid5.Coords)
    (arg1 : Memref sig .tc .vmem S5000x128 .f32) (harg1 : arg1.IsWhole) (arg2 : Memref sig .tc .vmem S128x128 .f32) (harg2 : arg2.IsWhole)
    (arg3 : Memref sig .tc .vmem S128 .f32) (harg3 : arg3.IsWhole) (arg4 : Memref sig .tc .vmem S5000x128 .f32) (harg4 : arg4.IsWhole)
    {D0 D1 D2 D3 : Type} {b0 : D0 → _} {b1 : D1 → _} {b2 : D2 → _} {b3 : D3 → _} {x0 x1 x2 y} (h0 : ∀ d, b0 d = x0) (h1 : ∀ d, b1 d = x1) (h2 : ∀ d, b2 d = x2)
    (hy : y = out5_3 x0 x1 x2) (R Ro : sProp 𝕄) :
    iprop(R ∗ Ro ∗ (∃ d, owns c arg1 fullShare (b0 d)) ∗ (∃ d, owns c arg2 fullShare (b1 d))
        ∗ (∃ d, owns c arg3 fullShare (b2 d)) ∗ (∃ d, owns c arg4 fullShare (b3 d)))
      ⊢ wp frame (wpE (defs₀ (F := F)) Variants.none c none) Set.univ (cc5__linear_kernel i arg1 harg1 arg2 harg2 arg3 harg3 arg4 harg4) fun _ =>
        iprop(R ∗ Ro ∗ owns c arg1 fullShare x0 ∗ owns c arg2 fullShare x1
          ∗ owns c arg3 fullShare x2 ∗ owns c arg4 fullShare y) := by
  subst hy
  simp only [cc5__linear_kernel_eq_skeleton, h0, h1, h2]; unfold cc5__linear_kernel_skel owns
  iintro ⟨HR, Ho, ⟨%_, %f0, %hf0, H0⟩, ⟨%_, %f1, %hf1, H1⟩, ⟨%_, %f2, %hf2, H2⟩, ⟨%_, %f3, -, H3⟩⟩
  subst hf0 hf1 hf2
  sl_exec
  sl_step
  iframe
  isplitl [H0]; · iexists f0; iframe; ipureintro; rfl
  isplitl [H1]; · iexists f1; iframe; ipureintro; rfl
  isplitl [H2]; · iexists f2; iframe; ipureintro; rfl
  iexists _; iframe; ipureintro
  exact View.read_writes_eq_canon _ _ _ (View.cover_of_tiled _ S5000x128.size (by rfl))

def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := rfl
theorem after5_3 (c : Dev nD) (t : Fin cfg5.N) :
    (dat5 V c).after 3 t = out5_3 (iblk5 V c 0 t) (iblk5 V c 1 t) (iblk5 V c 2 t) := by dsimp only [dat5]

-- On an input window `before` and `after` agree, so the triple's precondition is read at the values its postcondition names.
theorem before5 (c : Dev nD) (t : Fin cfg5.N) : ∀ w, (cfg5.win w).isOut = false → ∀ d, (dat5 V c).before w t d = (dat5 V c).after w t
  | 0, _, d | 1, _, d | 2, _, d => ((dat5 V c).before_in_eq_fetched _ rfl (fun _ => rfl) (fun _ _ _ => rfl) (fun _ => rfl) t d).trans rfl
  | 3, h, _ => nomatch h

theorem body_obligation5 (c : Dev nD) : BodyObligation (dat5 (F := F) V c) (defs₀ (F := F)) Variants.none () Set.univ := fun t => by
  rw [bigSep_W5, bigSep_W5]
  show _ ⊢ wp _ _ _ (bodyAt5 t) _
  exact sound_kernel5 c (grid5.coords t) _ _ _ _ _ _ _ _ (before5 V c t 0 rfl) (before5 V c t 1 rfl) (before5 V c t 2 rfl) (after5_3 V c t) _ _

end

end Cert.KernelIdeal.Fr

end
-- ==== Proof.FrFus6.lean ====
import proofs.«400973_j32538672234673_1_alg».proof.Proof.Gen.KernelIdeal.Launch
import proofs.«400973_j32538672234673_1_alg».proof.Proof.Gen.KernelIdeal.Skeleton
import proofs.«400973_j32538672234673_1_alg».proof.Proof.Gen.KernelIdeal.Points
import Idealize.ShloMosaic.Lib.Pipeline.FrameBody
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev rA6 : Rect S5000x128 := Rect.unit (s := S5000x128) ![0, 0] S5000x128.size inb_S5000x128_S5000x128_0_0
abbrev rD6 : Rect S5000x1 := Rect.unit (s := S5000x1) ![0, 0] S5000x1.size inb_S5000x1_S5000x1_0_0
abbrev rB6 : Rect S128 := Rect.unit (s := S128) ![0] S128.size inb_S128_S128_0

def out6_4 (x0 x1 : Vec F S5000x128 .f32) (x2 : Vec F S5000x1 .f32) (x3 : Vec F S128 .f32) : Vec F S5000x128 .f32 :=
  View.canon [⟨rA6, k6_pay1 (View.ld x0 rA6) (View.ld x1 rA6) (View.ld x2 rD6) (View.ld x3 rB6)⟩]

-- The body's triple, its inputs' contents given up to an equation, so that it applies to the obligation as the library states it.
theorem sound_kernel6 (c : Dev nD) (i : grid6.Coords)
    (arg1 : Memref sig .tc .vmem S5000x128 .f32) (harg1 : arg1.IsWhole) (arg2 : Memref sig .tc .vmem S5000x128 .f32) (harg2 : arg2.IsWhole)
    (arg3 : Memref sig .tc .vmem S5000x1 .f32) (harg3 : arg3.IsWhole) (arg4 : Memref sig .tc .vmem S128 .f32) (harg4 : arg4.IsWhole)
    (arg5 : Memref sig .tc .vmem S5000x128 .f32) (harg5 : arg5.IsWhole)
    {D0 D1 D2 D3 D4 : Type} {b0 : D0 → _} {b1 : D1 → _} {b2 : D2 → _} {b3 : D3 → _} {b4 : D4 → _} {x0 x1 x2 x3 y}
    (h0 : ∀ d, b0 d = x0) (h1 : ∀ d, b1 d = x1) (h2 : ∀ d, b2 d = x2) (h3 : ∀ d, b3 d = x3) (hy : y = out6_4 x0 x1 x2 x3) (R Ro : sProp 𝕄) :
    iprop(R ∗ Ro ∗ (∃ d, owns c arg1 fullShare (b0 d)) ∗ (∃ d, owns c arg2 fullShare (b1 d))
        ∗ (∃ d, owns c arg3 fullShare (b2 d)) ∗ (∃ d, owns c arg4 fullShare (b3 d))
        ∗ (∃ d, owns c arg5 fullShare (b4 d)))
      ⊢ wp frame (wpE (defs₀ (F := F)) Variants.none c none) Set.univ (cc6__fused_update_kernel i arg1 harg1 arg2 harg2 arg3 harg3 arg4 harg4 arg5 harg5) fun _ =>
        iprop(R ∗ Ro ∗ owns c arg1 fullShare x0 ∗ owns c arg2 fullShare x1
          ∗ owns c arg3 fullShare x2 ∗ owns c arg4 fullShare x3 ∗ owns c arg5 fullShare y) := by
  subst hy
  simp only [cc6__fused_update_kernel_eq_skeleton, h0, h1, h2, h3]; unfold cc6__fused_update_kernel_skel owns
  iintro ⟨HR, Ho, ⟨%_, %f0, %hf0, H0⟩, ⟨%_, %f1, %hf1, H1⟩, ⟨%_, %f2, %hf2, H2⟩, ⟨%_, %f3, %hf3, H3⟩, ⟨%_, %f4, -, H4⟩⟩
  subst hf0 hf1 hf2 hf3
  sl_exec
  sl_step
  iframe
  isplitl [H0]; · iexists f0; iframe; ipureintro; rfl
  isplitl [H1]; · iexists f1; iframe; ipureintro; rfl
  isplitl [H2]; · iexists f2; iframe; ipureintro; rfl
  isplitl [H3]; · iexists f3; iframe; ipureintro; rfl
  iexists _; iframe; ipureintro
  exact View.read_writes_eq_canon _ _ _ (View.cover_of_tiled _ S5000x128.size (by rfl))

def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 (iblk6 V c 0 t) (iblk6 V c 1 t) (iblk6 V c 2 t) (iblk6 V c 3 t)
  Φ _ := Pipeline.ΦA spec6 c
  q _ := fullShare
  owed _ := 0

theorem A_eq6 (c : Dev nD) (w : Fin cfg6.W) : (dat6 V c).A w = V c (Pipeline.arrRef spec6 w) := rfl
theorem after6_4 (c : Dev nD) (t : Fin cfg6.N) :
    (dat6 V c).after 4 t = out6_4 (iblk6 V c 0 t) (iblk6 V c 1 t) (iblk6 V c 2 t) (iblk6 V c 3 t) := by dsimp only [dat6]

-- On an input window `before` and `after` agree, so the triple's precondition is read at the values its postcondition names.
theorem before6 (c : Dev nD) (t : Fin cfg6.N) : ∀ w, (cfg6.win w).isOut = false → ∀ d, (dat6 V c).before w t d = (dat6 V c).after w t
  | 0, _, d | 1, _, d | 2, _, d | 3, _, d => ((dat6 V c).before_in_eq_fetched _ rfl (fun _ => rfl) (fun _ _ _ => rfl) (fun _ => rfl) t d).trans rfl
  | 4, h, _ => nomatch h

theorem body_obligation6 (c : Dev nD) : BodyObligation (dat6 (F := F) V c) (defs₀ (F := F)) Variants.none () Set.univ := fun t => by
  rw [bigSep_W6, bigSep_W6]
  show _ ⊢ wp _ _ _ (bodyAt6 t) _
  exact sound_kernel6 c (grid6.coords t) _ _ _ _ _ _ _ _ _ _
    (before6 V c t 0 rfl) (before6 V c t 1 rfl) (before6 V c t 2 rfl) (before6 V c t 3 rfl) (after6_4 V c t) _ _

end

end Cert.KernelIdeal.Fr

end
-- ==== Proof.FrPool7.lean ====
import proofs.«400973_j32538672234673_1_alg».proof.Proof.Gen.KernelIdeal.Launch
import proofs.«400973_j32538672234673_1_alg».proof.Proof.Gen.KernelIdeal.Skeleton
import proofs.«400973_j32538672234673_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))
abbrev rX7 : Rect S5000x128 := Rect.unit (s := S5000x128) ![0, 0] S5000x128.size inb_S5000x128_S5000x128_0_0
abbrev rI7 : Rect S5000x1 := Rect.unit (s := S5000x1) ![0, 0] S5000x1.size inb_S5000x1_S5000x1_0_0
abbrev rW7 : Rect S128x128 := Rect.unit (s := S128x128) ![0, 0] S128x128.size inb_S128x128_S128x128_0_0
abbrev rB7 : Rect S128 := Rect.unit (s := S128) ![0] S128.size inb_S128_S128_0
abbrev rU7 : Rect S128x10 := Rect.unit (s := S128x10) ![0, 0] S128x10.size inb_S128x10_S128x10_0_0
abbrev rC7 : Rect S10 := Rect.unit (s := S10) ![0] S10.size inb_S10_S10_0
abbrev rS7 : Rect S512x128 := Rect.unit (s := S512x128) ![0, 0] S512x128.size inb_S512x128_S512x128_0_0
abbrev rO7 : Rect S512x10 := Rect.unit (s := S512x10) ![0, 0] S512x10.size inb_S512x10_S512x10_0_0

def zero7 : Vec F S512x128 .f32 := View.canon [⟨rS7, k7_pay1 (F := F)⟩]

def step7 (ids : Vec F S5000x1 .i32) (x : Vec F S5000x128 .f32) (a : Vec F S512x128 .f32) : Vec F S512x128 .f32 :=
  View.canon [⟨rS7, k7_pay2 (View.ld ids rI7) (View.ld x rX7) (View.ld a rS7)⟩]

def mlp7 (a : Vec F S512x128 .f32) (w1 : Vec F S128x128 .f32) (b1 : Vec F S128 .f32) (w2 : Vec F S128x10 .f32) (b2 : Vec F S10 .f32) :
    Vec F S512x10 .f32 :=
  View.canon [⟨rO7, k7_pay3 (View.ld a rS7) (View.ld w1 rW7) (View.ld b1 rB7) (View.ld w2 rU7) (View.ld b2 rC7)⟩]

theorem ld_canon_cons {s : Shape} {e : EltTy} (r : Rect s) (w : r.shape.Idx → Elt F e) (L : List (View.Piece (Elt F) s e)) :
    View.ld (View.canon (⟨r, w⟩ :: L)) r = w :=
  funext fun j => View.canon_cons_emb r w L j

theorem ld_zero7 : View.ld (zero7 (F := F)) rS7 = k7_pay1 (F := F) := ld_canon_cons _ _ _
theorem ld_step7 (ids : Vec F S5000x1 .i32) (x : Vec F S5000x128 .f32) (a : Vec F S512x128 .f32) :
    View.ld (step7 ids x a) rS7 = k7_pay2 (View.ld ids rI7) (View.ld x rX7) (View.ld a rS7) := ld_canon_cons _ _ _

def acc7 (c : Dev nD) : ℕ → Vec F S512x128 .f32
  | 0 => zero7
  | n + 1 => if h : n < cfg7.N then step7 (iblk7 V c 1 ⟨n, h⟩) (iblk7 V c 0 ⟨n, h⟩) (acc7 c n) else acc7 c n

theorem acc7_zero (c : Dev nD) : acc7 V c 0 = zero7 := rfl
theorem acc7_succ (c : Dev nD) (t : Fin cfg7.N) :
    acc7 V c (t.val + 1) = step7 (iblk7 V c 1 t) (iblk7 V c 0 t) (acc7 V c t.val) := by
  rw [acc7, dif_pos t.isLt]

abbrev t19 : Fin cfg7.N := ⟨19, by decide⟩

def out7_6 (c : Dev nD) : Vec F S512x10 .f32 :=
  mlp7 (acc7 V c 20) (iblk7 V c 2 t19) (iblk7 V c 3 t19) (iblk7 V c 4 t19) (iblk7 V c 5 t19)

theorem out7_6_eq (c : Dev nD) (t : Fin cfg7.N) (h : t.val = 19) :
    out7_6 V c = mlp7 (acc7 V c (t.val + 1)) (iblk7 V c 2 t) (iblk7 V c 3 t) (iblk7 V c 4 t) (iblk7 V c 5 t) := by
  obtain rfl : t = t19 := Fin.ext h
  rfl

abbrev scM7 : Memref sig .tc .vmem S512x128 .f32 := Memref.whole cc7_scratch0

abbrev rest7 (c : Dev nD) : sProp 𝕄 :=
  Pipeline.scopedRestBut (Ix := Unit) (Name := ℕ) (U := Pipeline.UD sig nD τ) (Lvl := ℕ) (Val := Elt F) spec7 c [cc7_scratch0]

def Φ7 (c : Dev nD) : ℕ → sProp 𝕄
  | 0 => iprop(rest7 c ∗ (∃ r, prngReg c r) ∗ (∃ d, owns (c : Thread nD τ) scM7 fullShare d))
  | n + 1 => iprop(rest7 c ∗ (∃ r, prngReg c r) ∗ owns (c : Thread nD τ) scM7 fullShare (acc7 V c (n + 1)))

theorem Φ7_zero (c : Dev nD) :
    Φ7 V c 0 = iprop(rest7 c ∗ (∃ r, prngReg c r) ∗ (∃ d, owns (c : Thread nD τ) scM7 fullShare d)) := rfl
theorem Φ7_succ (c : Dev nD) (n : ℕ) :
    Φ7 V c (n + 1) = iprop(rest7 c ∗ (∃ r, prngReg c r) ∗ owns (c : Thread nD τ) scM7 fullShare (acc7 V c (n + 1))) := rfl
theorem Φ7_pos (c : Dev nD) (n : ℕ) (hn : n ≠ 0) :
    Φ7 V c n = iprop(rest7 c ∗ (∃ r, prngReg c r) ∗ owns (c : Thread nD τ) scM7 fullShare (acc7 V c n)) := by
  cases n with
  | zero => exact absurd rfl hn
  | succ n => rfl

def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 V c
  Φ t := Φ7 V c t.val
  q _ := fullShare
  owed _ := 0

theorem A_eq7 (c : Dev nD) (w : Fin cfg7.W) : (dat7 V c).A w = V c (Pipeline.arrRef spec7 w) := by
  dsimp only [dat7]
theorem after7_6 (c : Dev nD) (t : Fin cfg7.N) : (dat7 V c).after 6 t = out7_6 V c := by dsimp only [dat7]

theorem before7 (c : Dev nD) (t : Fin cfg7.N) :
    (∀ d, (dat7 V c).before 0 t d = iblk7 V c 0 t) ∧ (∀ d, (dat7 V c).before 1 t d = iblk7 V c 1 t)
    ∧ (∀ d, (dat7 V c).before 2 t d = iblk7 V c 2 t) ∧ (∀ d, (dat7 V c).before 3 t d = iblk7 V c 3 t)
    ∧ (∀ d, (dat7 V c).before 4 t d = iblk7 V c 4 t) ∧ (∀ d, (dat7 V c).before 5 t d = iblk7 V c 5 t) := by
  refine ⟨?_, ?_, ?_, ?_, ?_, ?_⟩ <;> exact fun d =>
    ((dat7 V c).before_in_eq_fetched _ rfl (fun _ => rfl) (fun _ _ _ => rfl) (fun _ => by dsimp only [dat7]; rfl) t d).trans
      (by dsimp only [dat7]; rfl)

theorem Φ7_first (c : Dev nD) : (Pipeline.ΦA spec7 c : sProp 𝕄) ⊢ (dat7 V c).Φ 0 := by
  rw [show (dat7 V c).Φ 0 = Φ7 V c 0 from rfl]
  unfold Pipeline.ΦA Φ7 rest7
  rw [scopedRest7_split]
  simp only [scM7, owns_whole]
  iintro ⟨⟨HS, HR⟩, Hg⟩
  iframe

theorem Φ7_last (c : Dev nD) : (dat7 V c).Φ (Fin.last cfg7.N) ⊢ (Pipeline.ΦA spec7 c : sProp 𝕄) := by
  rw [show (dat7 V c).Φ (Fin.last cfg7.N) = Φ7 V c (19 + 1) from rfl]
  unfold Pipeline.ΦA Φ7 rest7
  rw [scopedRest7_split]
  simp only [scM7, owns_whole]
  iintro ⟨HR, Hg, HS⟩
  iframe HR Hg
  iexists _; iexact HS

abbrev cond7_0 (i : grid7.Coords) : Prop := (Scalar.cmpi .ne (Scalar.extui (Scalar.cmpi .eq (BitVec.ofNat 32 (i 0).val) 0#32)) 0#32) = 1#1
abbrev cond7_1 (i : grid7.Coords) : Prop := k7_cond2 i = 1#1

theorem hcond7_0 : ∀ t : Fin cfg7.N, cond7_0 (grid7.coords t) ↔ t.val = 0 :=
  (by decide +kernel : ∀ t : Fin grid7.N, cond7_0 (grid7.coords t) ↔ t.val = 0)
theorem hcond7_1 : ∀ t : Fin cfg7.N, cond7_1 (grid7.coords t) ↔ t.val = 19 :=
  (by decide +kernel : ∀ t : Fin grid7.N, cond7_1 (grid7.coords t) ↔ t.val = 19)

theorem idleAt7_6 : ∀ t : Fin cfg7.N, ¬cond7_1 (grid7.coords t) → cfg7.idle 6 (grid7.coords t) = true := by decide +kernel
theorem noFlush7_6 : ∀ t : Fin cfg7.N, ¬cond7_1 (grid7.coords t) → (cfg7.win 6).flush t = false := by decide +kernel
theorem liveAt7_6 : ∀ t : Fin cfg7.N, cond7_1 (grid7.coords t) → cfg7.idle 6 (grid7.coords t) = false := by decide +kernel

theorem cover7_S (p0 : Vec F S512x128 .f32) (y : S512x128.Idx) :
    ∃ pc ∈ ([⟨rS7, p0⟩] : List (View.Piece (Elt F) S512x128 .f32)), y ∈ pc.1.set :=
  View.cover_of_tiled [⟨rS7, p0⟩] S512x128.size (by rfl) y
theorem whole7_S (y : S512x128.Idx) : y ∈ (rS7).set := by
  obtain ⟨pc, hm, hy⟩ := View.cover_of_tiled (Val := fun _ => Unit) (e := .f32) [⟨rS7, fun _ => ()⟩] S512x128.size (by rfl) y
  rw [List.mem_singleton] at hm; subst hm; exact hy

theorem two_writes7 {κ : Kind} {sp : Space} (v : View sig κ sp S512x128 .f32) (f : v.ty.Contents (Elt F)) (P Z : Vec F S512x128 .f32) :
    v.read (Elt F) (v.writes (Elt F) f [⟨rS7, P⟩, ⟨rS7, Z⟩]) = View.canon [⟨rS7, P⟩] :=
  (View.read_writes_of_cover_last v f v f (⟨rS7, P⟩ : View.Piece (Elt F) S512x128 .f32) [⟨rS7, Z⟩] [] whole7_S).trans
    (View.read_writes_eq_canon _ _ _ (cover7_S _))

section
variable (c : Dev nD) {E : Set ℕ} {i : grid7.Coords}
  {arg1 : Memref sig .tc .vmem S5000x128 .f32} {harg1 : arg1.IsWhole} {arg2 : Memref sig .tc .vmem S5000x1 .i32} {harg2 : arg2.IsWhole}
  {arg3 : Memref sig .tc .vmem S128x128 .f32} {harg3 : arg3.IsWhole} {arg4 : Memref sig .tc .vmem S128 .f32} {harg4 : arg4.IsWhole}
  {arg5 : Memref sig .tc .vmem S128x10 .f32} {harg5 : arg5.IsWhole} {arg6 : Memref sig .tc .vmem S10 .f32} {harg6 : arg6.IsWhole}
  {arg7 : Memref sig .tc .vmem S512x10 .f32} {harg7 : arg7.IsWhole} {arg8 : Memref sig .tc .vmem S512x128 .f32} {harg8 : arg8.IsWhole}
  (x0 : Vec F S5000x128 .f32) (x1 : Vec F S5000x1 .i32) (x2 : Vec F S128x128 .f32) (x3 : Vec F S128 .f32)
  (x4 : Vec F S128x10 .f32) (x5 : Vec F S10 .f32) (a : Vec F S512x128 .f32)

-- The first point: the accumulator, found at anything, is zeroed and then updated with the point's tile.
theorem sound_kernel7_A {K : PUnit → sProp 𝕄} (hc0 : cond7_0 i) (hc1 : ¬cond7_1 i) :
    iprop(owns (c : Thread nD τ) arg1 fullShare x0 ∗ owns (c : Thread nD τ) arg2 fullShare x1 ∗ (∃ d, owns (c : Thread nD τ) arg8 fullShare d)
        ∗ (iprop(owns (c : Thread nD τ) arg1 fullShare x0 ∗ owns (c : Thread nD τ) arg2 fullShare x1
            ∗ owns (c : Thread nD τ) arg8 fullShare (step7 x1 x0 zero7)) -∗ K ⟨⟩))
      ⊢ wp frame (wpE (defs₀ (F := F)) Variants.none c none) E
          (cc7__pool_mlp_kernel i arg1 harg1 arg2 harg2 arg3 harg3 arg4 harg4 arg5 harg5 arg6 harg6 arg7 harg7 arg8 harg8) K := by
  simp only [cc7__pool_mlp_kernel_eq_skeleton]; unfold cc7__pool_mlp_kernel_skel
  unfold owns
  iintro ⟨⟨%f0, %hf0, H0⟩, ⟨%f1, %hf1, H1⟩, ⟨%d, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  unfold sound_kernel7_A.sl.v14 sound_kernel7_A.sl.HS_1
  rw [View.readCov_cons_toLoadRect]
  unfold step7; rw [ld_zero7]
  exact two_writes7 _ _ _ _

-- A middle point: the accumulator, found at `a`, is updated with the point's tile.
theorem sound_kernel7_B {K : PUnit → sProp 𝕄} (hc0 : ¬cond7_0 i) (hc1 : ¬cond7_1 i) :
    iprop(owns (c : Thread nD τ) arg1 fullShare x0 ∗ owns (c : Thread nD τ) arg2 fullShare x1 ∗ owns (c : Thread nD τ) arg8 fullShare a
        ∗ (iprop(owns (c : Thread nD τ) arg1 fullShare x0 ∗ owns (c : Thread nD τ) arg2 fullShare x1
            ∗ owns (c : Thread nD τ) arg8 fullShare (step7 x1 x0 a)) -∗ K ⟨⟩))
      ⊢ wp frame (wpE (defs₀ (F := F)) Variants.none c none) E
          (cc7__pool_mlp_kernel i arg1 harg1 arg2 harg2 arg3 harg3 arg4 harg4 arg5 harg5 arg6 harg6 arg7 harg7 arg8 harg8) K := by
  simp only [cc7__pool_mlp_kernel_eq_skeleton]; unfold cc7__pool_mlp_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  exact View.read_writes_eq_canon _ _ _ (cover7_S _)

-- The last point: after the update, the perceptron of the accumulator is stored into the result block, found at `d6`.
theorem sound_kernel7_C (d6 : Vec F S512x10 .f32) {K : PUnit → sProp 𝕄} (hc0 : ¬cond7_0 i) (hc1 : cond7_1 i) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare d6 ∗ owns (c : Thread nD τ) arg8 fullShare a
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (mlp7 (step7 x1 x0 a) x2 x3 x4 x5)
            ∗ owns (c : Thread nD τ) arg8 fullShare (step7 x1 x0 a)) -∗ K ⟨⟩))
      ⊢ wp frame (wpE (defs₀ (F := F)) Variants.none c none) E
          (cc7__pool_mlp_kernel i arg1 harg1 arg2 harg2 arg3 harg3 arg4 harg4 arg5 harg5 arg6 harg6 arg7 harg7 arg8 harg8) K := by
  simp only [cc7__pool_mlp_kernel_eq_skeleton]; unfold cc7__pool_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, -, H6⟩, ⟨%fs, %hfs, HS⟩, Hk⟩
  subst hf0; subst hf1; subst hf2; subst hf3; subst hf4; subst hf5; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    unfold sound_kernel7_C.sl.v23 sound_kernel7_C.sl.HS_1
    rw [View.readCov_cons_toLoadRect]
    unfold mlp7; rw [ld_step7]
    exact View.read_writes_eq_canon _ _ _ (View.cover_of_tiled _ S512x10.size (by rfl))
  iexists _; isplitr
  swap; · iexact HS
  ipureintro
  unfold sound_kernel7_C.sl.HS_1
  exact View.read_writes_eq_canon _ _ _ (cover7_S _)

end

-- The body at any point: its case is read off the position; the invariant lends the accumulator and takes it back one update on.
theorem sound_body7 (c : Dev nD) (t : Fin cfg7.N) :
    iprop(Φ7 V c t.val ∗ (dat7 V c).owesAt () t.castSucc
      ∗ (∃ d, owns (c : Thread nD τ) (st7_0 t) fullShare ((dat7 V c).before 0 t d))
      ∗ (∃ d, owns (c : Thread nD τ) (st7_1 t) fullShare ((dat7 V c).before 1 t d))
      ∗ (∃ d, owns (c : Thread nD τ) (st7_2 t) fullShare ((dat7 V c).before 2 t d))
      ∗ (∃ d, owns (c : Thread nD τ) (st7_3 t) fullShare ((dat7 V c).before 3 t d))
      ∗ (∃ d, owns (c : Thread nD τ) (st7_4 t) fullShare ((dat7 V c).before 4 t d))
      ∗ (∃ d, owns (c : Thread nD τ) (st7_5 t) fullShare ((dat7 V c).before 5 t d))
      ∗ (∃ d, owns (c : Thread nD τ) (st7_6 t) fullShare ((dat7 V c).before 6 t d)))
    ⊢ wp frame (wpE (defs₀ (F := F)) Variants.none c none) Set.univ (bodyAt7 t) fun _ =>
      iprop(Φ7 V c (t.val + 1) ∗ (dat7 V c).owesAt () t.castSucc
        ∗ owns (c : Thread nD τ) (st7_0 t) fullShare (iblk7 V c 0 t)
        ∗ owns (c : Thread nD τ) (st7_1 t) fullShare (iblk7 V c 1 t)
        ∗ owns (c : Thread nD τ) (st7_2 t) fullShare (iblk7 V c 2 t)
        ∗ owns (c : Thread nD τ) (st7_3 t) fullShare (iblk7 V c 3 t)
        ∗ owns (c : Thread nD τ) (st7_4 t) fullShare (iblk7 V c 4 t)
        ∗ owns (c : Thread nD τ) (st7_5 t) fullShare (iblk7 V c 5 t)
        ∗ (dat7 V c).leavesExact 6 t) := by
  unfold bodyAt7
  obtain ⟨b0, b1, b2, b3, b4, b5⟩ := before7 V c t
  simp only [b0, b1, b2, b3, b4, b5]
  rw [Φ7_succ, acc7_succ]
  have hN : t.val < 20 := lt_of_lt_of_eq t.isLt (show cfg7.N = 20 from N_7)
  by_cases hl : t.val = 19
  · have hc0 : ¬cond7_0 (grid7.coords t) := fun h => by have := (hcond7_0 t).mp h; omega
    have hc1 : cond7_1 (grid7.coords t) := (hcond7_1 t).mpr hl
    rw [Φ7_pos V c _ (by omega), show (dat7 V c).leavesExact 6 t = owns (c : Thread nD τ) (st7_6 t) fullShare ((dat7 V c).after 6 t) from by
      unfold Dat.leavesExact; rw [liveAt7_6 t hc1], after7_6, out7_6_eq V c t hl, acc7_succ]
    iintro ⟨⟨HR, Hg, HS⟩, Ho, ⟨%d0, H0⟩, ⟨%d1, H1⟩, ⟨%d2, H2⟩, ⟨%d3, H3⟩, ⟨%d4, H4⟩, ⟨%d5, H5⟩, ⟨%d6, H6⟩⟩
    iapply (sound_kernel7_C c (iblk7 V c 0 t) (iblk7 V c 1 t) (iblk7 V c 2 t) (iblk7 V c 3 t) (iblk7 V c 4 t) (iblk7 V c 5 t)
      (acc7 V c t.val) ((dat7 V c).before 6 t d6) hc0 hc1)
    iframe H0 H1 H2 H3 H4 H5 H6 HS
    iintro ⟨H0, H1, H2, H3, H4, H5, H6, HS⟩
    iframe
  · have hc1 : ¬cond7_1 (grid7.coords t) := fun h => hl ((hcond7_1 t).mp h)
    rw [Dat.leavesExact_idle (dat7 V c) 6 t (idleAt7_6 t hc1) (noFlush7_6 t hc1)]
    by_cases hz : t.val = 0
    · rw [show Φ7 V c t.val = Φ7 V c 0 from by rw [hz], Φ7_zero, show acc7 V c t.val = zero7 from by rw [hz]; rfl]
      iintro ⟨⟨HR, Hg, HS⟩, Ho, ⟨%d0, H0⟩, ⟨%d1, H1⟩, ⟨%d2, H2⟩, ⟨%d3, H3⟩, ⟨%d4, H4⟩, ⟨%d5, H5⟩, H6⟩
      iapply (sound_kernel7_A c (iblk7 V c 0 t) (iblk7 V c 1 t) ((hcond7_0 t).mpr hz) hc1)
      iframe H0 H1 HS
      iintro ⟨H0, H1, HS⟩
      iframe
    · rw [Φ7_pos V c _ hz]
      iintro ⟨⟨HR, Hg, HS⟩, Ho, ⟨%d0, H0⟩, ⟨%d1, H1⟩, ⟨%d2, H2⟩, ⟨%d3, H3⟩, ⟨%d4, H4⟩, ⟨%d5, H5⟩, H6⟩
      iapply (sound_kernel7_B c (iblk7 V c 0 t) (iblk7 V c 1 t) (acc7 V c t.val) (fun h => hz ((hcond7_0 t).mp h)) hc1)
      iframe H0 H1 HS
      iintro ⟨H0, H1, HS⟩
      iframe

theorem body_obligation7 (c : Dev nD) : BodyObligation (dat7 (F := F) V c) (defs₀ (F := F)) Variants.none () Set.univ := fun t => by
  rw [bigSep_W7, bigSep_W7]
  exact sound_body7 V c t

end

end Cert.KernelIdeal.Fr

end
-- ==== Proof.Chain.lean ====
import proofs.«400973_j32538672234673_1_alg».proof.Proof.Gen.KernelIdeal.Launch
import proofs.«400973_j32538672234673_1_alg».proof.Proof.Gen.KernelIdeal.Skeleton
import proofs.«400973_j32538672234673_1_alg».proof.Proof.Gen.KernelIdeal.Points
import proofs.«400973_j32538672234673_1_alg».proof.Proof.Gen.KernelIdeal.Regions
import proofs.«400973_j32538672234673_1_alg».proof.Proof.FrLin0
import proofs.«400973_j32538672234673_1_alg».proof.Proof.FrLin1
import proofs.«400973_j32538672234673_1_alg».proof.Proof.FrFus2
import proofs.«400973_j32538672234673_1_alg».proof.Proof.FrLin3
import proofs.«400973_j32538672234673_1_alg».proof.Proof.FrFus4
import proofs.«400973_j32538672234673_1_alg».proof.Proof.FrLin5
import proofs.«400973_j32538672234673_1_alg».proof.Proof.FrFus6
import proofs.«400973_j32538672234673_1_alg».proof.Proof.FrPool7
import proofs.«400973_j32538672234673_1_alg».proof.Proof.LibRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen Cert.LibRegion
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- A core's buffers as the regions' proof data read them. -/
abbrev vr (W : Dev nD → Valuation τ sig (Elt F)) : (c : Dev nD) → (b : Ref sig .tc) → Buf (Elt F) ((c : Thread nD τ).loc b) :=
  fun c b => W c b

abbrev Wd0 : Dev nD → Valuation τ sig (Elt F) := fun c b => m (c, b)
abbrev Vr0 := vr (Wd0 m)

abbrev Wd1 : Dev nD → Valuation τ sig (Elt F) := fun c => StableHlo.after hostOps0 (Wd0 m c)
abbrev Vr1 := vr (Wd1 m)
theorem Wd1_keep (c : Dev nD) (r : Ref sig .tc) (h : r ∉ hostOps0_W) : Wd1 m c r = Wd0 m c r :=
  StableHlo.after_of_writes_sub hostOps0 _ hostOps0_writes h

def Wd2 (c : Dev nD) : Valuation τ sig (Elt F) := stepW (dat0 (Vr1 m) c) (Wd1 m c)
abbrev Vr2 := vr (Wd2 m)
theorem Wd2_arr (c : Dev nD) (w : Fin cfg0.W) :
    Wd2 m c (Proc.devRef .tc (Pipeline.arrRef spec0 w)) = (dat0 (Vr1 m) c).arrAt w cfg0.N :=
  stepW_arr _ _ launch0.win.arr_inj w
theorem Wd2_keep (c : Dev nD) (b : Ref sig .tc) (hb : b ≠ main_v25) :
    Wd2 m c (Proc.devRef .tc b) = Wd1 m c (Proc.devRef .tc b) :=
  stepW_keep _ _ launch0.win.arr_inj (A_eq0 (Vr1 m) c) b fun w e => by
    match w, e with
    | ⟨0, _⟩, _ => rfl
    | ⟨1, _⟩, _ => rfl
    | ⟨2, _⟩, _ => rfl
    | ⟨3, _⟩, e => exact absurd e.symm hb

def Wd3 (c : Dev nD) : Valuation τ sig (Elt F) := stepW (dat1 (Vr2 m) c) (Wd2 m c)
abbrev Vr3 := vr (Wd3 m)
theorem Wd3_arr (c : Dev nD) (w : Fin cfg1.W) :
    Wd3 m c (Proc.devRef .tc (Pipeline.arrRef spec1 w)) = (dat1 (Vr2 m) c).arrAt w cfg1.N :=
  stepW_arr _ _ launch1.win.arr_inj w
theorem Wd3_keep (c : Dev nD) (b : Ref sig .tc) (hb : b ≠ main_v26) :
    Wd3 m c (Proc.devRef .tc b) = Wd2 m c (Proc.devRef .tc b) :=
  stepW_keep _ _ launch1.win.arr_inj (A_eq1 (Vr2 m) c) b fun w e => by
    match w, e with
    | ⟨0, _⟩, _ => rfl
    | ⟨1, _⟩, _ => rfl
    | ⟨2, _⟩, _ => rfl
    | ⟨3, _⟩, e => exact absurd e.symm hb

abbrev Wd4 : Dev nD → Valuation τ sig (Elt F) := fun c => StableHlo.after hostOps2 (Wd3 m c)
abbrev Vr4 := vr (Wd4 m)
theorem Wd4_keep (c : Dev nD) (r : Ref sig .tc) (h : r ∉ hostOps2_W) : Wd4 m c r = Wd3 m c r :=
  StableHlo.after_of_writes_sub hostOps2 _ hostOps2_writes h

def Wd5 (c : Dev nD) : Valuation τ sig (Elt F) := stepW (dat2 (Vr4 m) c) (Wd4 m c)
abbrev Vr5 := vr (Wd5 m)
theorem Wd5_arr (c : Dev nD) (w : Fin cfg2.W) :
    Wd5 m c (Proc.devRef .tc (Pipeline.arrRef spec2 w)) = (dat2 (Vr4 m) c).arrAt w cfg2.N :=
  stepW_arr _ _ launch2.win.arr_inj w
theorem Wd5_keep (c : Dev nD) (b : Ref sig .tc) (hb : b ≠ main_v40) :
    Wd5 m c (Proc.devRef .tc b) = Wd4 m c (Proc.devRef .tc b) :=
  stepW_keep _ _ launch2.win.arr_inj (A_eq2 (Vr4 m) c) b fun w e => by
    match w, e with
    | ⟨0, _⟩, _ => rfl
    | ⟨1, _⟩, _ => rfl
    | ⟨2, _⟩, _ => rfl
    | ⟨3, _⟩, _ => rfl
    | ⟨4, _⟩, e => exact absurd e.symm hb

def Wd6 (c : Dev nD) : Valuation τ sig (Elt F) := stepW (dat3 (Vr5 m) c) (Wd5 m c)
abbrev Vr6 := vr (Wd6 m)
theorem Wd6_arr (c : Dev nD) (w : Fin cfg3.W) :
    Wd6 m c (Proc.devRef .tc (Pipeline.arrRef spec3 w)) = (dat3 (Vr5 m) c).arrAt w cfg3.N :=
  stepW_arr _ _ launch3.win.arr_inj w
theorem Wd6_keep (c : Dev nD) (b : Ref sig .tc) (hb : b ≠ main_v41) :
    Wd6 m c (Proc.devRef .tc b) = Wd5 m c (Proc.devRef .tc b) :=
  stepW_keep _ _ launch3.win.arr_inj (A_eq3 (Vr5 m) c) b fun w e => by
    match w, e with
    | ⟨0, _⟩, _ => rfl
    | ⟨1, _⟩, _ => rfl
    | ⟨2, _⟩, _ => rfl
    | ⟨3, _⟩, e => exact absurd e.symm hb

abbrev Wd7 : Dev nD → Valuation τ sig (Elt F) := fun c => StableHlo.after hostOps4 (Wd6 m c)
abbrev Vr7 := vr (Wd7 m)
theorem Wd7_keep (c : Dev nD) (r : Ref sig .tc) (h : r ∉ hostOps4_W) : Wd7 m c r = Wd6 m c r :=
  StableHlo.after_of_writes_sub hostOps4 _ hostOps4_writes h

def Wd8 (c : Dev nD) : Valuation τ sig (Elt F) := stepW (dat4 (Vr7 m) c) (Wd7 m c)
abbrev Vr8 := vr (Wd8 m)
theorem Wd8_arr (c : Dev nD) (w : Fin cfg4.W) :
    Wd8 m c (Proc.devRef .tc (Pipeline.arrRef spec4 w)) = (dat4 (Vr7 m) c).arrAt w cfg4.N :=
  stepW_arr _ _ launch4.win.arr_inj w
theorem Wd8_keep (c : Dev nD) (b : Ref sig .tc) (hb : b ≠ main_v55) :
    Wd8 m c (Proc.devRef .tc b) = Wd7 m c (Proc.devRef .tc b) :=
  stepW_keep _ _ launch4.win.arr_inj (A_eq4 (Vr7 m) c) b fun w e => by
    match w, e with
    | ⟨0, _⟩, _ => rfl
    | ⟨1, _⟩, _ => rfl
    | ⟨2, _⟩, _ => rfl
    | ⟨3, _⟩, _ => rfl
    | ⟨4, _⟩, e => exact absurd e.symm hb

def Wd9 (c : Dev nD) : Valuation τ sig (Elt F) := stepW (dat5 (Vr8 m) c) (Wd8 m c)
abbrev Vr9 := vr (Wd9 m)
theorem Wd9_arr (c : Dev nD) (w : Fin cfg5.W) :
    Wd9 m c (Proc.devRef .tc (Pipeline.arrRef spec5 w)) = (dat5 (Vr8 m) c).arrAt w cfg5.N :=
  stepW_arr _ _ launch5.win.arr_inj w
theorem Wd9_keep (c : Dev nD) (b : Ref sig .tc) (hb : b ≠ main_v56) :
    Wd9 m c (Proc.devRef .tc b) = Wd8 m c (Proc.devRef .tc b) :=
  stepW_keep _ _ launch5.win.arr_inj (A_eq5 (Vr8 m) c) b fun w e => by
    match w, e with
    | ⟨0, _⟩, _ => rfl
    | ⟨1, _⟩, _ => rfl
    | ⟨2, _⟩, _ => rfl
    | ⟨3, _⟩, e => exact absurd e.symm hb

abbrev Wd10 : Dev nD → Valuation τ sig (Elt F) := fun c => StableHlo.after hostOps6 (Wd9 m c)
abbrev Vr10 := vr (Wd10 m)
theorem Wd10_keep (c : Dev nD) (r : Ref sig .tc) (h : r ∉ hostOps6_W) : Wd10 m c r = Wd9 m c r :=
  StableHlo.after_of_writes_sub hostOps6 _ hostOps6_writes h

def Wd11 (c : Dev nD) : Valuation τ sig (Elt F) := stepW (dat6 (Vr10 m) c) (Wd10 m c)
abbrev Vr11 := vr (Wd11 m)
theorem Wd11_arr (c : Dev nD) (w : Fin cfg6.W) :
    Wd11 m c (Proc.devRef .tc (Pipeline.arrRef spec6 w)) = (dat6 (Vr10 m) c).arrAt w cfg6.N :=
  stepW_arr _ _ launch6.win.arr_inj w
theorem Wd11_keep (c : Dev nD) (b : Ref sig .tc) (hb : b ≠ main_v70) :
    Wd11 m c (Proc.devRef .tc b) = Wd10 m c (Proc.devRef .tc b) :=
  stepW_keep _ _ launch6.win.arr_inj (A_eq6 (Vr10 m) c) b fun w e => by
    match w, e with
    | ⟨0, _⟩, _ => rfl
    | ⟨1, _⟩, _ => rfl
    | ⟨2, _⟩, _ => rfl
    | ⟨3, _⟩, _ => rfl
    | ⟨4, _⟩, e => exact absurd e.symm hb

abbrev Wd12 : Dev nD → Valuation τ sig (Elt F) := fun c => StableHlo.after hostOps7 (Wd11 m c)
abbrev Vr12 := vr (Wd12 m)
theorem Wd12_keep (c : Dev nD) (r : Ref sig .tc) (h : r ∉ hostOps7_W) : Wd12 m c r = Wd11 m c r :=
  StableHlo.after_of_writes_sub hostOps7 _ hostOps7_writes h

def Wd13 (c : Dev nD) : Valuation τ sig (Elt F) := stepW (dat7 (Vr12 m) c) (Wd12 m c)
abbrev Vr13 := vr (Wd13 m)
theorem Wd13_arr (c : Dev nD) (w : Fin cfg7.W) :
    Wd13 m c (Proc.devRef .tc (Pipeline.arrRef spec7 w)) = (dat7 (Vr12 m) c).arrAt w cfg7.N :=
  stepW_arr _ _ launch7.win.arr_inj w
theorem Wd13_keep (c : Dev nD) (b : Ref sig .tc) (hb : b ≠ main_v72) :
    Wd13 m c (Proc.devRef .tc b) = Wd12 m c (Proc.devRef .tc b) :=
  stepW_keep _ _ launch7.win.arr_inj (A_eq7 (Vr12 m) c) b fun w e => by
    match w, e with
    | ⟨0, _⟩, _ => rfl
    | ⟨1, _⟩, _ => rfl
    | ⟨2, _⟩, _ => rfl
    | ⟨3, _⟩, _ => rfl
    | ⟨4, _⟩, _ => rfl
    | ⟨5, _⟩, _ => rfl
    | ⟨6, _⟩, e => exact absurd e.symm hb

/-- A buffer no host stretch writes and no region outputs ends at its launch contents. -/
theorem Wd13_launch (c : Dev nD) (b : Ref sig .tc)
    (h : b ∉ hostOps0_W ∧ b ∉ hostOps2_W ∧ b ∉ hostOps4_W ∧ b ∉ hostOps6_W ∧ b ∉ hostOps7_W ∧ b ≠ main_v25 ∧ b ≠ main_v26
      ∧ b ≠ main_v40 ∧ b ≠ main_v41 ∧ b ≠ main_v55 ∧ b ≠ main_v56 ∧ b ≠ main_v70 ∧ b ≠ main_v72) :
    Wd13 m c (Proc.devRef .tc b) = m ((c : Thread nD τ).loc b) := by
  obtain ⟨h0, h2, h4, h6, h7, r0, r1, r2, r3, r4, r5, r6, r7⟩ := h
  exact (Wd13_keep m c b r7).trans <| (Wd12_keep m c b h7).trans <| (Wd11_keep m c b r6).trans <| (Wd10_keep m c b h6).trans <| (Wd9_keep m c b r5).trans <| (Wd8_keep m c b r4).trans <| (Wd7_keep m c b h4).trans <| (Wd6_keep m c b r3).trans <| (Wd5_keep m c b r2).trans <| (Wd4_keep m c b h2).trans <| (Wd3_keep m c b r1).trans <| (Wd2_keep m c b r0).trans <| (Wd1_keep m c b h0)

def pdats : (p : Fin 8) → (c : Dev nD) → Dat τ (Elt F) Unit ℕ (Pipeline.UD sig nD τ) ℕ (Pipeline.pin (pcfgs (F := F)) adm p) c
  | ⟨0, _⟩ => fun c => dat0 (Vr1 m) c
  | ⟨1, _⟩ => fun c => dat1 (Vr2 m) c
  | ⟨2, _⟩ => fun c => dat2 (Vr4 m) c
  | ⟨3, _⟩ => fun c => dat3 (Vr5 m) c
  | ⟨4, _⟩ => fun c => dat4 (Vr7 m) c
  | ⟨5, _⟩ => fun c => dat5 (Vr8 m) c
  | ⟨6, _⟩ => fun c => dat6 (Vr10 m) c
  | ⟨7, _⟩ => fun c => dat7 (Vr12 m) c
abbrev 𝒱₀ : Variants := Variants.none
abbrev Lp : GSem nD τ sig → Finset Unit := fun _ => ∅
abbrev lvp : GSem nD τ sig → Unit → ℕ := fun _ _ => 0
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ Lp lvp :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem prefNone (p : Fin 8) (c : Dev nD) :
    (BI.emp : sProp 𝕄) ⊢ Pipeline.prefHeld (pcfgs (F := F) p).pre c (fun _ => fullShare) (adm p).1 := by
  unfold Pipeline.prefHeld; rw [show (Finset.univ : Finset (Fin 0)) = ∅ from rfl, BI.bigSep_empty]

def reg0 : Pipeline.RegionSeg (pcfgs (F := F)) adm (pdats m) () defs₀ 𝒱₀ Lp lvp 0 :=
  regionSeg _ _ _ _ _ _ 0 launch0.win launch0.block_pos launch0.stage_whole launch0.arr_whole (prefNone 0)
    (fun c => body_obligation0 (Vr1 m) c) (fun _ _ => rfl) (fun _ _ => rfl) (fun _ => rfl) (fun _ => .rfl) (fun _ => .rfl)
    (Wd1 m) (A_eq0 (Vr1 m))

def reg1 : Pipeline.RegionSeg (pcfgs (F := F)) adm (pdats m) () defs₀ 𝒱₀ Lp lvp 1 :=
  regionSeg _ _ _ _ _ _ 1 launch1.win launch1.block_pos launch1.stage_whole launch1.arr_whole (prefNone 1)
    (fun c => body_obligation1 (Vr2 m) c) (fun _ _ => rfl) (fun _ _ => rfl) (fun _ => rfl) (fun _ => .rfl) (fun _ => .rfl)
    (Wd2 m) (A_eq1 (Vr2 m))

def reg2 : Pipeline.RegionSeg (pcfgs (F := F)) adm (pdats m) () defs₀ 𝒱₀ Lp lvp 2 :=
  regionSeg _ _ _ _ _ _ 2 launch2.win launch2.block_pos launch2.stage_whole launch2.arr_whole (prefNone 2)
    (fun c => body_obligation2 (Vr4 m) c) (fun _ _ => rfl) (fun _ _ => rfl) (fun _ => rfl) (fun _ => .rfl) (fun _ => .rfl)
    (Wd4 m) (A_eq2 (Vr4 m))

def reg3 : Pipeline.RegionSeg (pcfgs (F := F)) adm (pdats m) () defs₀ 𝒱₀ Lp lvp 3 :=
  regionSeg _ _ _ _ _ _ 3 launch3.win launch3.block_pos launch3.stage_whole launch3.arr_whole (prefNone 3)
    (fun c => body_obligation3 (Vr5 m) c) (fun _ _ => rfl) (fun _ _ => rfl) (fun _ => rfl) (fun _ => .rfl) (fun _ => .rfl)
    (Wd5 m) (A_eq3 (Vr5 m))

def reg4 : Pipeline.RegionSeg (pcfgs (F := F)) adm (pdats m) () defs₀ 𝒱₀ Lp lvp 4 :=
  regionSeg _ _ _ _ _ _ 4 launch4.win launch4.block_pos launch4.stage_whole launch4.arr_whole (prefNone 4)
    (fun c => body_obligation4 (Vr7 m) c) (fun _ _ => rfl) (fun _ _ => rfl) (fun _ => rfl) (fun _ => .rfl) (fun _ => .rfl)
    (Wd7 m) (A_eq4 (Vr7 m))

def reg5 : Pipeline.RegionSeg (pcfgs (F := F)) adm (pdats m) () defs₀ 𝒱₀ Lp lvp 5 :=
  regionSeg _ _ _ _ _ _ 5 launch5.win launch5.block_pos launch5.stage_whole launch5.arr_whole (prefNone 5)
    (fun c => body_obligation5 (Vr8 m) c) (fun _ _ => rfl) (fun _ _ => rfl) (fun _ => rfl) (fun _ => .rfl) (fun _ => .rfl)
    (Wd8 m) (A_eq5 (Vr8 m))

def reg6 : Pipeline.RegionSeg (pcfgs (F := F)) adm (pdats m) () defs₀ 𝒱₀ Lp lvp 6 :=
  regionSeg _ _ _ _ _ _ 6 launch6.win launch6.block_pos launch6.stage_whole launch6.arr_whole (prefNone 6)
    (fun c => body_obligation6 (Vr10 m) c) (fun _ _ => rfl) (fun _ _ => rfl) (fun _ => rfl) (fun _ => .rfl) (fun _ => .rfl)
    (Wd10 m) (A_eq6 (Vr10 m))

def reg7 : Pipeline.RegionSeg (pcfgs (F := F)) adm (pdats m) () defs₀ 𝒱₀ Lp lvp 7 :=
  regionSeg _ _ _ _ _ _ 7 launch7.win launch7.block_pos launch7.stage_whole launch7.arr_whole (prefNone 7)
    (fun c => body_obligation7 (Vr12 m) c) (fun _ _ => rfl) (fun _ _ => rfl) (fun _ => rfl) (Φ7_first (Vr12 m)) (Φ7_last (Vr12 m))
    (Wd12 m) (A_eq7 (Vr12 m))

abbrev segs : List (Pipeline.Seg (pcfgs (F := F)) adm (pdats m) () defs₀ 𝒱₀ Lp lvp) :=
  [ .host (hseg hostOps0 hostOps0_sub hostOps0_fresh (Wd0 m)),
    .region (reg0 m),
    .region (reg1 m),
    .host (hseg hostOps2 hostOps2_sub hostOps2_fresh (Wd3 m)),
    .region (reg2 m),
    .region (reg3 m),
    .host (hseg hostOps4 hostOps4_sub hostOps4_fresh (Wd6 m)),
    .region (reg4 m),
    .region (reg5 m),
    .host (hseg hostOps6 hostOps6_sub hostOps6_fresh (Wd9 m)),
    .region (reg6 m),
    .host (hseg hostOps7 hostOps7_sub hostOps7_fresh (Wd11 m)),
    .region (reg7 m) ]

theorem main_run (c : Dev nD) : main (F := F) c = Pipeline.Seg.run (segs m) := by
  rw [main_chain c, Pipeline.Seg.run_eq_chain]
  rfl

/-- Every weakly fair execution of @main terminates, nothing faulting, with the buffers at `Wd13`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Wd13 m c b) :=
  Pipeline.θ_run_regions_kit (pcfgs (F := F)) adm (pdats m) () cellOf_inj embL defs₀ 𝒱₀ Lp lvp m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wd0 m c) ∗ Rr c))
    (Tₙ := fun c => iprop(StableHlo.held (c : Thread nD τ) (Pipeline.ucRefs τ sig) (Wd13 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach Lp lvp fun c => ?_
      rw [show unscopedBufs c (fun b => m ((c : Thread nD τ).loc b)) = StableHlo.held (c : Thread nD τ) (Pipeline.ucRefs τ sig) (Wd0 m c)
        from Pipeline.unscopedBufs_held c (Wd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wd13 m c b)
    (hfin := fun c s' => by
      iintro ⟨⟨Hh, -⟩, HSI⟩
      unfold StableHlo.held
      imodintro
      iapply (pointsTo_read_all (Pipeline.ucRefs τ sig) (fun b => (((c : Thread nD τ)).1, b)) (Wd13 m c) s')
      isplitl [Hh] <;> iassumption)
    (hQ := fun s h c => h c)

/-- A memory that holds the buffers at `Wd13` holds every argument array at its launch contents. -/
theorem args_kept (c : Dev nD) (M : (ℓ : Loc nD τ sig) → Buf (Elt F) ℓ)
    (h : ∀ b ∈ Pipeline.ucRefs τ sig, M (((c : Thread nD τ)).1, b) = Wd13 m c b) :
      M ((c.tc : Thread nD τ).loc main_arg0) = m ((c.tc : Thread nD τ).loc main_arg0)
      ∧ M ((c.tc : Thread nD τ).loc main_arg1) = m ((c.tc : Thread nD τ).loc main_arg1)
      ∧ M ((c.tc : Thread nD τ).loc main_arg2) = m ((c.tc : Thread nD τ).loc main_arg2)
      ∧ M ((c.tc : Thread nD τ).loc main_arg3) = m ((c.tc : Thread nD τ).loc main_arg3)
      ∧ M ((c.tc : Thread nD τ).loc main_arg4) = m ((c.tc : Thread nD τ).loc main_arg4)
      ∧ M ((c.tc : Thread nD τ).loc main_arg5) = m ((c.tc : Thread nD τ).loc main_arg5)
      ∧ M ((c.tc : Thread nD τ).loc main_arg6) = m ((c.tc : Thread nD τ).loc main_arg6)
      ∧ M ((c.tc : Thread nD τ).loc main_arg7) = m ((c.tc : Thread nD τ).loc main_arg7)
      ∧ M ((c.tc : Thread nD τ).loc main_arg8) = m ((c.tc : Thread nD τ).loc main_arg8)
      ∧ M ((c.tc : Thread nD τ).loc main_arg9) = m ((c.tc : Thread nD τ).loc main_arg9)
      ∧ M ((c.tc : Thread nD τ).loc main_arg10) = m ((c.tc : Thread nD τ).loc main_arg10)
      ∧ M ((c.tc : Thread nD τ).loc main_arg11) = m ((c.tc : Thread nD τ).loc main_arg11)
      ∧ M ((c.tc : Thread nD τ).loc main_arg12) = m ((c.tc : Thread nD τ).loc main_arg12)
      ∧ M ((c.tc : Thread nD τ).loc main_arg13) = m ((c.tc : Thread nD τ).loc main_arg13)
      ∧ M ((c.tc : Thread nD τ).loc main_arg14) = m ((c.tc : Thread nD τ).loc main_arg14)
      ∧ M ((c.tc : Thread nD τ).loc main_arg15) = m ((c.tc : Thread nD τ).loc main_arg15) :=
  have key (b : Ref sig .tc) (hu : ¬ (Proc.devRef .tc b : DevRef τ sig).isScoped) hk :
      M ((c.tc : Thread nD τ).loc b) = m ((c.tc : Thread nD τ).loc b) := (h _ (mem_uc b hu)).trans (Wd13_launch m c b hk)
  ⟨key main_arg0 (by decide) (by decide),
   key main_arg1 (by decide) (by decide),
   key main_arg2 (by decide) (by decide),
   key main_arg3 (by decide) (by decide),
   key main_arg4 (by decide) (by decide),
   key main_arg5 (by decide) (by decide),
   key main_arg6 (by decide) (by decide),
   key main_arg7 (by decide) (by decide),
   key main_arg8 (by decide) (by decide),
   key main_arg9 (by decide) (by decide),
   key main_arg10 (by decide) (by decide),
   key main_arg11 (by decide) (by decide),
   key main_arg12 (by decide) (by decide),
   key main_arg13 (by decide) (by decide),
   key main_arg14 (by decide) (by decide),
   key main_arg15 (by decide) (by decide)⟩

end Cert.KernelIdeal.Fr

end
-- ==== Proof.RefOps.lean ====
import proofs.«400973_j32538672234673_1_alg».proof.Proof.Gen.ReferenceIdeal.Read

noncomputable section

namespace Cert.RefOps

open Cert.ReferenceIdeal Cert.ReferenceIdeal.Gen Idealize.ShloMosaic Idealize.ShloMosaic.TcCoe

variable {F : FTy → Type} [FloatOps F]

abbrev Arr (F : FTy → Type) [FloatOps F] (S : Shape) (e : EltTy) : Type := (⟨S, e⟩ : BufTy).Contents (Elt F)

def biasRows (Bv : Arr F S128 .f32) : Arr F S100000x128 .f32 :=
  broadcastInDim S100000x128 ![0, 1] bcast_S1x128_S100000x128_0_1 (broadcastInDim S1x128 ![1] bcast_S128_S1x128_1 Bv)

def zeroRows : Arr F S100000x128 .f32 :=
  broadcastInDim S100000x128 ![] bcast_S_S100000x128 (constant S_ .f32 0x00000000#32)

/-- A layer's transform: the node features times the weight matrix. -/
def linRef (X : Arr F S100000x128 .f32) (Wt : Arr F S128x128 .f32) : Arr F S100000x128 .f32 :=
  Host.dotGeneral dot_S100000x128_S128x128_S100000x128_1_0_0_1_n_n none X Wt

def encRef (X : Arr F S100000x128 .f32) (Wt : Arr F S128x128 .f32) (Bv : Arr F S128 .f32) : Arr F S100000x128 .f32 :=
  addf (linRef X Wt) (biasRows Bv)

def dinvRef (Dst : Arr F S1600000 .i32) : Arr F S100000 .f32 :=
  Host.rsqrt (addf
    (Host.scatterAdd scatter_S100000_S1600000x1_S1600000_n_0_0_1
      (broadcastInDim S100000 ![] bcast_S_S100000 (constant S_ .f32 0x00000000#32))
      (broadcastInDim S1600000x1 ![0] bcast_S1600000_S1600000x1_0 Dst)
      (broadcastInDim S1600000 ![] bcast_S_S1600000 (constant S_ .f32 0x3F800000#32)))
    (broadcastInDim S100000 ![] bcast_S_S100000 (constant S_ .f32 0x3F800000#32)))

def wrapIdx (I : Arr F S1600000 .i32) : Arr F S1600000 .i32 :=
  select (cmpi .slt I (broadcastInDim S1600000 ![] bcast_S_S1600000 (constantI S_ 32 0#32)))
    (addi I (broadcastInDim S1600000 ![] bcast_S_S1600000 (constantI S_ 32 100000#32))) I

def dinvAt (Dst I : Arr F S1600000 .i32) : Arr F S1600000 .f32 :=
  Host.gather gather_S100000_S1600000x1_S1600000_n_0_n_n_0_1_1 (dinvRef Dst)
    (broadcastInDim S1600000x1 ![0] bcast_S1600000_S1600000x1_0 (wrapIdx I))

def normRef (Src Dst : Arr F S1600000 .i32) : Arr F S1600000 .f32 :=
  mulf (dinvAt Dst Src) (dinvAt Dst Dst)

def dinv2Ref (Dst : Arr F S1600000 .i32) : Arr F S100000x1 .f32 :=
  broadcastInDim S100000x1 ![0] bcast_S100000_S100000x1_0 (mulf (dinvRef Dst) (dinvRef Dst))

/-- Aggregation along the edges: gather at the sources, weight, scatter-add at the targets. -/
def aggRef (H : Arr F S100000x128 .f32) (Src Dst : Arr F S1600000 .i32) (Nrm : Arr F S1600000 .f32) : Arr F S100000x128 .f32 :=
  Host.scatterAdd scatter_S100000x128_S1600000x1_S1600000x128_1_0_0_1 zeroRows
    (broadcastInDim S1600000x1 ![0] bcast_S1600000_S1600000x1_0 Dst)
    (mulf
      (Host.gather gather_S100000x128_S1600000x1_S1600000x128_1_0_n_n_0_1_1128 H
        (broadcastInDim S1600000x1 ![0] bcast_S1600000_S1600000x1_0 (wrapIdx Src)))
      (broadcastInDim S1600000x128 ![0, 1] bcast_S1600000x1_S1600000x128_0_1
        (broadcastInDim S1600000x1 ![0] bcast_S1600000_S1600000x1_0 Nrm)))

def fusRef (Agg Hl : Arr F S100000x128 .f32) (D2 : Arr F S100000x1 .f32) (Bv : Arr F S128 .f32) : Arr F S100000x128 .f32 :=
  maximumf
    (addf (addf Agg (mulf Hl (broadcastInDim S100000x128 ![0, 1] bcast_S100000x1_S100000x128_0_1 D2))) (biasRows Bv))
    zeroRows

def layerRef (H : Arr F S100000x128 .f32) (Src Dst : Arr F S1600000 .i32) (Wt : Arr F S128x128 .f32) (Bv : Arr F S128 .f32) :
    Arr F S100000x128 .f32 :=
  fusRef (aggRef (linRef H Wt) Src Dst (normRef Src Dst)) (linRef H Wt) (dinv2Ref Dst) Bv

def poolSum (H : Arr F S100000x128 .f32) (B2 : Arr F S100000x1 .i32) : Arr F S512x128 .f32 :=
  Host.scatterAdd scatter_S512x128_S100000x1_S100000x128_1_0_0_1
    (broadcastInDim S512x128 ![] bcast_S_S512x128 (constant S_ .f32 0x00000000#32)) B2 H

def mlpRef (G : Arr F S512x128 .f32) (Wr1 : Arr F S128x128 .f32) (Br1 : Arr F S128 .f32) (Wr2 : Arr F S128x10 .f32) (Br2 : Arr F S10 .f32) :
    Arr F S512x10 .f32 :=
  addf
    (Host.dotGeneral dot_S512x128_S128x10_S512x10_1_0_0_1_n_n none
      (maximumf
        (addf (Host.dotGeneral dot_S512x128_S128x128_S512x128_1_0_0_1_n_n none G Wr1)
          (broadcastInDim S512x128 ![0, 1] bcast_S1x128_S512x128_0_1 (broadcastInDim S1x128 ![1] bcast_S128_S1x128_1 Br1)))
        (broadcastInDim S512x128 ![] bcast_S_S512x128 (constant S_ .f32 0x00000000#32)))
      Wr2)
    (broadcastInDim S512x10 ![0, 1] bcast_S1x10_S512x10_0_1 (broadcastInDim S1x10 ![1] bcast_S10_S1x10_1 Br2))

/-- The readout: node features summed per graph, then the two-layer perceptron. -/
def poolRef (H : Arr F S100000x128 .f32) (B2 : Arr F S100000x1 .i32) (Wr1 : Arr F S128x128 .f32) (Br1 : Arr F S128 .f32)
    (Wr2 : Arr F S128x10 .f32) (Br2 : Arr F S10 .f32) : Arr F S512x10 .f32 :=
  mlpRef (poolSum H B2) Wr1 Br1 Wr2 Br2

def batchCol (B : Arr F S100000 .i32) : Arr F S100000x1 .i32 :=
  broadcastInDim S100000x1 ![0] bcast_S100000_S100000x1_0 B

end Cert.RefOps

end
-- ==== Proof.ValLinCommon.lean ====
import proofs.«400973_j32538672234673_1_alg».proof.Proof.Gen.KernelIdeal.Launch
import proofs.«400973_j32538672234673_1_alg».proof.Proof.Gen.KernelIdeal.Skeleton
import proofs.«400973_j32538672234673_1_alg».proof.Proof.Gen.KernelIdeal.Points
import proofs.«400973_j32538672234673_1_alg».proof.Proof.RefOps
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

noncomputable section

namespace Cert.KernelIdeal.Fr

open Cert.KernelIdeal Cert.KernelIdeal.Gen
open Idealize.ShloMosaic Idealize.ShloMosaic.TcCoe Idealize.ShloMosaic.ValueIdx

theorem zerosPair : (![0, 0] : Fin 2 → Nat) = fun _ => 0 := funext fun a => by fin_cases a <;> rfl
theorem zerosSingle : (![0] : Fin 1 → Nat) = fun _ => 0 := funext fun a => by fin_cases a <;> rfl

theorem lhs_tile_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_tile_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_tile_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_tile_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem matmul_tile_apply {φa φb : FTy} (x : FVec Ideal S5000x128 φa) (w : FVec Ideal S128x128 φb) (p : Fin 5000) (q : Fin 128) :
    FloatOps.matmul dot_S5000x128_S128x128_S5000x128_1_0_0_1_n_n none x w (constant S5000x128 .f32 0x00000000#32) (ix2 p q)
      = ∑ k : Fin 128, x (ix2 p k) * w (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_tile_0 _ _
    | ⟨1, _⟩ => exact (lhs_tile_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_tile_0 _ _).trans hk
    | ⟨1, _⟩ => exact rhs_tile_1 _ _)
  rw [el, er]

theorem bias_tile_apply {α : Type} (b : S128.Idx → α) (p : Fin 5000) (q : Fin 128) :
    broadcastTo S5000x128 (shapeCast S1x128 b shapeCasts_S128_S1x128) broadcasts_S1x128_S5000x128 (ix2 p q) = b (ix1 q) := by
  rw [broadcastTo_apply (shapeCast S1x128 b shapeCasts_S128_S1x128) broadcasts_S1x128_S5000x128 (ix2 p q) (ix2 (0 : Fin 1) q)
    (fun a => match a with
      | ⟨0, _⟩ => by show (0 : Nat) = if (1 : Nat) = 1 then 0 else _; rw [if_pos rfl]
      | ⟨1, _⟩ => by show q.val = if (128 : Nat) = 1 then 0 else q.val; rw [if_neg (by decide)])]
  exact shapeCast_apply b shapeCasts_S128_S1x128 (ix2 (0 : Fin 1) q) (ix1 q) (by
    rw [Shape.rowMajor_val_one, Shape.rowMajor_val_two]; simp)

theorem linRef_apply (X : Cert.RefOps.Arr Ideal S100000x128 .f32) (Wt : Cert.RefOps.Arr Ideal S128x128 .f32) (r : Fin 100000) (q : Fin 128) :
    Cert.RefOps.linRef (F := Ideal) X Wt (ix2 r q) = ∑ k : Fin 128, X (ix2 r k) * Wt (ix2 k q) := by
  refine (Cert.ReferenceIdeal.Read.val_main_v0_apply X Wt (ix2 r q)).trans ?_
  refine Finset.sum_congr rfl fun k _ => ?_
  have el : Cert.ReferenceIdeal.Read.lidx_main_v0 (ix2 r q) k = ix2 r k := funext fun a => Fin.ext (by match a with | ⟨0, _⟩ => rfl | ⟨1, _⟩ => rfl)
  have er : Cert.ReferenceIdeal.Read.ridx_main_v0 (ix2 r q) k = ix2 k q := funext fun a => Fin.ext (by match a with | ⟨0, _⟩ => rfl | ⟨1, _⟩ => rfl)
  rw [el, er]

theorem biasRows_apply {F : FTy → Type} [FloatOps F] (Bv : Cert.RefOps.Arr F S128 .f32) (r : Fin 100000) (q : Fin 128) :
    Cert.RefOps.biasRows (F := F) Bv (ix2 r q) = Bv (ix1 q) := by
  refine (Cert.ReferenceIdeal.Read.val_main_v2_apply Bv (ix2 r q)).trans ?_
  refine (Cert.ReferenceIdeal.Read.val_main_v1_apply Bv _).trans ?_
  exact congrArg Bv (funext fun a => Fin.ext (by match a with | ⟨0, _⟩ => rfl))

theorem encRef_apply (X : Cert.RefOps.Arr Ideal S100000x128 .f32) (Wt : Cert.RefOps.Arr Ideal S128x128 .f32) (Bv : Cert.RefOps.Arr Ideal S128 .f32)
    (r : Fin 100000) (q : Fin 128) :
    Cert.RefOps.encRef (F := Ideal) X Wt Bv (ix2 r q) = (∑ k : Fin 128, X (ix2 r k) * Wt (ix2 k q)) + Bv (ix1 q) := by
  show Cert.RefOps.linRef (F := Ideal) X Wt (ix2 r q) + Cert.RefOps.biasRows (F := Ideal) Bv (ix2 r q) = _
  rw [linRef_apply, biasRows_apply]

-- Row r of the 100000-row array lies in the tile of 5000 rows that r / 5000 names, whatever its column.
theorem rowTile_mem (idx : Fin 2 → ℕ) (i : S100000x128.Idx) (e0 : idx 0 = (i 0).val / 5000) (e1 : idx 1 = 0) (a : Fin 2) :
    idx a * S5000x128.size a ≤ (i a).val ∧ (i a).val < idx a * S5000x128.size a + S5000x128.size a := by
  have h0 : (i 0).val < 100000 := (i 0).isLt
  have h1 : (i 1).val < 128 := (i 1).isLt
  match a with
  | ⟨0, _⟩ => show idx 0 * 5000 ≤ (i 0).val ∧ (i 0).val < idx 0 * 5000 + 5000; rw [e0]; omega
  | ⟨1, _⟩ => show idx 1 * 128 ≤ (i 1).val ∧ (i 1).val < idx 1 * 128 + 128; rw [e1]; omega

end Cert.KernelIdeal.Fr

end
-- ==== Proof.ValLin0.lean ====
import proofs.«400973_j32538672234673_1_alg».proof.Proof.FrLin0
import proofs.«400973_j32538672234673_1_alg».proof.Proof.ValLinCommon

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

section
variable (V : (c : Dev nD) → (b : Ref sig .tc) → Buf (Elt Ideal) ((c : Thread nD τ).loc b))

theorem k0_pay1_apply (x : Vec Ideal S5000x128 .f32) (w : Vec Ideal S128x128 .f32) (b : Vec Ideal S128 .f32) (p : Fin 5000) (q : Fin 128) :
    k0_pay1 (F := Ideal) x w b (ix2 p q) = (∑ k : Fin 128, x (ix2 p k) * w (ix2 k q)) + b (ix1 q) := by
  unfold k0_pay1
  exact congrArg₂ (· + ·)
    (matmul_tile_apply (truncf .bf16 (x : FVec Ideal S5000x128 .f32) bitsLt_bf16_f32) (truncf .bf16 (w : FVec Ideal S128x128 .f32) bitsLt_bf16_f32) p q)
    (bias_tile_apply b p q)

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem iblk0_0_apply (c : Dev nD) (t : Fin cfg0.N) (p : Fin 5000) (k : Fin 128) (r : Fin 100000) (hr : r.val = t.val * 5000 + p.val) :
    (iblk0 V c 0 t : Vec Ideal S5000x128 .f32) (ix2 p k) = (V c main_arg0 : S100000x128.Idx → Elt Ideal .f32) (ix2 r k) := by
  obtain ⟨e0, e1, -⟩ := idx_facts0 t
  exact congrArg (V c main_arg0) ((eq_ix2 _).trans (congrArg₂ ix2 (Fin.ext (by show win0_0.index t (0 : Fin 2) * 5000 + 1 * p.val = r.val; omega)) (Fin.ext (by show win0_0.index t (1 : Fin 2) * 128 + 1 * k.val = k.val; omega))))

theorem iblk0_1_apply (c : Dev nD) (t : Fin cfg0.N) (k : Fin 128) (q : Fin 128) :
    (iblk0 V c 1 t : Vec Ideal S128x128 .f32) (ix2 k q) = (V c main_arg4 : S128x128.Idx → Elt Ideal .f32) (ix2 k q) := by
  obtain ⟨-, -, e0, e1, -⟩ := idx_facts0 t
  exact congrArg (V c main_arg4) ((eq_ix2 _).trans (congrArg₂ ix2 (Fin.ext (by show win0_1.index t (0 : Fin 2) * 128 + 1 * k.val = k.val; omega)) (Fin.ext (by show win0_1.index t (1 : Fin 2) * 128 + 1 * q.val = q.val; omega))))

theorem iblk0_2_apply (c : Dev nD) (t : Fin cfg0.N) (q : Fin 128) :
    (iblk0 V c 2 t : Vec Ideal S128 .f32) (ix1 q) = (V c main_arg5 : S128.Idx → Elt Ideal .f32) (ix1 q) := by
  obtain ⟨-, -, -, -, e0, -⟩ := idx_facts0 t
  show V c main_arg5 (((cfg0.win 2).blk t).view.emb (ix1 q)) = _
  refine congrArg (V c main_arg5) (funext fun a => Fin.ext ?_)
  match a with
  | ⟨0, _⟩ => show win0_2.index t (0 : Fin 1) * 128 + 1 * q.val = q.val; rw [e0]; omega

theorem flushed0_3_eq (c : Dev nD) (t : Fin cfg0.N) :
    (dat0 (F := Ideal) V c).flushed 3 t = ((cfg0.win 3).blk t).view.read (Elt Ideal)
      (Cert.RefOps.encRef (F := Ideal) (V c main_arg0) (V c main_arg4) (V c main_arg5)) := by
  show (cfg0.win 3).cut (grid0.coords t) ((dat0 V c).after 3 t) = _
  rw [after0_3]
  unfold out0_3
  rw [View.canon_unit_zero zerosPair]
  simp only [View.ld_unit_zero (S := S5000x128) zerosPair, View.ld_unit_zero (S := S128x128) zerosPair, View.ld_unit_zero (S := S128) zerosSingle]
  funext j
  obtain ⟨p, q, rfl⟩ : ∃ (p : Fin 5000) (q : Fin 128), j = ix2 p q := ⟨j 0, j 1, eq_ix2 j⟩
  have hr : t.val * 5000 + p.val < 100000 := by have := t.isLt; have : t.val < 20 := this; omega
  obtain ⟨-, -, -, -, -, e0, e1⟩ := idx_facts0 t
  have hemb : ((cfg0.win 3).blk t).view.emb (ix2 p q) = (ix2 (⟨t.val * 5000 + p.val, hr⟩ : Fin 100000) q : S100000x128.Idx) :=
    (eq_ix2 _).trans (congrArg₂ ix2 (Fin.ext (by show win0_3.index t (0 : Fin 2) * 5000 + 1 * p.val = t.val * 5000 + p.val; omega)) (Fin.ext (by show win0_3.index t (1 : Fin 2) * 128 + 1 * q.val = q.val; omega)))
  show k0_pay1 (F := Ideal) (iblk0 V c 0 t) (iblk0 V c 1 t) (iblk0 V c 2 t) (ix2 p q)
    = Cert.RefOps.encRef (F := Ideal) (V c main_arg0) (V c main_arg4) (V c main_arg5) (((cfg0.win 3).blk t).view.emb (ix2 p q))
  rw [hemb, encRef_apply, k0_pay1_apply, iblk0_2_apply]
  congr 1
  refine Finset.sum_congr rfl fun k _ => ?_
  rw [iblk0_0_apply V c t p k ⟨t.val * 5000 + p.val, hr⟩ rfl, iblk0_1_apply]

theorem covered0_3 (i : S100000x128.Idx) : ∃ t : Fin cfg0.N, (cfg0.win 3).flush t = true ∧ i ∈ ((cfg0.win 3).blk t).view.set := by
  have hi0 : (i 0).val < 100000 := (i 0).isLt
  let t : Fin cfg0.N := ⟨(i 0).val / 5000, by show (i 0).val / 5000 < 20; omega⟩
  obtain ⟨-, -, -, -, -, e0, e1⟩ := idx_facts0 t
  refine ⟨t, flush0_3 t, ?_⟩
  show i ∈ ((View.whole main_v25).slice (win0_3.rect t)).set
  rw [View.set_slice_whole, Rect.mem_set_unit]
  exact rowTile_mem _ i e0 e1

theorem arrAt0_3 (c : Dev nD) :
    (dat0 (F := Ideal) V c).arrAt 3 cfg0.N = Cert.RefOps.encRef (F := Ideal) (V c main_arg0) (V c main_arg4) (V c main_arg5) :=
  (dat0 (F := Ideal) V c).arrAt_eq_of_cover 3 _ (fun t _ => flushed0_3_eq V c t) covered0_3

end

end Cert.KernelIdeal.Fr

end
-- ==== Proof.ValLin1.lean ====
import proofs.«400973_j32538672234673_1_alg».proof.Proof.FrLin1
import proofs.«400973_j32538672234673_1_alg».proof.Proof.ValLinCommon

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

section
variable (V : (c : Dev nD) → (b : Ref sig .tc) → Buf (Elt Ideal) ((c : Thread nD τ).loc b))

theorem k1_pay1_apply (x : Vec Ideal S5000x128 .f32) (w : Vec Ideal S128x128 .f32) (b : Vec Ideal S128 .f32) (p : Fin 5000) (q : Fin 128) :
    k1_pay1 (F := Ideal) x w b (ix2 p q) = (∑ k : Fin 128, x (ix2 p k) * w (ix2 k q)) + b (ix1 q) := by
  unfold k1_pay1
  rw [shapeCast_self, shapeCast_self]
  exact congrArg₂ (· + ·)
    (matmul_tile_apply (truncf .bf16 (x : FVec Ideal S5000x128 .f32) bitsLt_bf16_f32) (truncf .bf16 (w : FVec Ideal S128x128 .f32) bitsLt_bf16_f32) p q)
    (bias_tile_apply b p q)

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

theorem iblk1_0_apply (c : Dev nD) (t : Fin cfg1.N) (p : Fin 5000) (k : Fin 128) (r : Fin 100000) (hr : r.val = t.val * 5000 + p.val) :
    (iblk1 V c 0 t : Vec Ideal S5000x128 .f32) (ix2 p k) = (V c main_v25 : S100000x128.Idx → Elt Ideal .f32) (ix2 r k) := by
  obtain ⟨e0, e1, -⟩ := idx_facts1 t
  exact congrArg (V c main_v25) ((eq_ix2 _).trans (congrArg₂ ix2 (Fin.ext (by show win1_0.index t (0 : Fin 2) * 5000 + 1 * p.val = r.val; omega)) (Fin.ext (by show win1_0.index t (1 : Fin 2) * 128 + 1 * k.val = k.val; omega))))

theorem iblk1_1_apply (c : Dev nD) (t : Fin cfg1.N) (k : Fin 128) (q : Fin 128) :
    (iblk1 V c 1 t : Vec Ideal S128x128 .f32) (ix2 k q) = (V c main_arg6 : S128x128.Idx → Elt Ideal .f32) (ix2 k q) := by
  obtain ⟨-, -, e0, e1, -⟩ := idx_facts1 t
  exact congrArg (V c main_arg6) ((eq_ix2 _).trans (congrArg₂ ix2 (Fin.ext (by show win1_1.index t (0 : Fin 2) * 128 + 1 * k.val = k.val; omega)) (Fin.ext (by show win1_1.index t (1 : Fin 2) * 128 + 1 * q.val = q.val; omega))))

theorem iblk1_2_apply (c : Dev nD) (t : Fin cfg1.N) (q : Fin 128) :
    (iblk1 V c 2 t : Vec Ideal S128 .f32) (ix1 q) = (V c main_v1 : S128.Idx → Elt Ideal .f32) (ix1 q) := by
  obtain ⟨-, -, -, -, e0, -⟩ := idx_facts1 t
  show V c main_v1 (((cfg1.win 2).blk t).view.emb (ix1 q)) = _
  refine congrArg (V c main_v1) (funext fun a => Fin.ext ?_)
  match a with
  | ⟨0, _⟩ => show win1_2.index t (0 : Fin 1) * 128 + 1 * q.val = q.val; rw [e0]; omega

theorem flushed1_3_eq (c : Dev nD)
    (hz : V c main_v1 = broadcastInDim S128 ![] bcast_S_S128 (constant (F := Ideal) S_ .f32 0x00000000#32)) (t : Fin cfg1.N) :
    (dat1 (F := Ideal) V c).flushed 3 t = ((cfg1.win 3).blk t).view.read (Elt Ideal)
      (Cert.RefOps.linRef (F := Ideal) (V c main_v25) (V c main_arg6)) := by
  show (cfg1.win 3).cut (grid1.coords t) ((dat1 V c).after 3 t) = _
  rw [after1_3]
  unfold out1_3
  rw [View.canon_unit_zero zerosPair]
  simp only [View.ld_unit_zero (S := S5000x128) zerosPair, View.ld_unit_zero (S := S128x128) zerosPair, View.ld_unit_zero (S := S128) zerosSingle]
  funext j
  obtain ⟨p, q, rfl⟩ : ∃ (p : Fin 5000) (q : Fin 128), j = ix2 p q := ⟨j 0, j 1, eq_ix2 j⟩
  have hr : t.val * 5000 + p.val < 100000 := by have := t.isLt; have : t.val < 20 := this; omega
  obtain ⟨-, -, -, -, -, e0, e1⟩ := idx_facts1 t
  have hemb : ((cfg1.win 3).blk t).view.emb (ix2 p q) = (ix2 (⟨t.val * 5000 + p.val, hr⟩ : Fin 100000) q : S100000x128.Idx) :=
    (eq_ix2 _).trans (congrArg₂ ix2 (Fin.ext (by show win1_3.index t (0 : Fin 2) * 5000 + 1 * p.val = t.val * 5000 + p.val; omega)) (Fin.ext (by show win1_3.index t (1 : Fin 2) * 128 + 1 * q.val = q.val; omega)))
  have hb : (V c main_v1 : S128.Idx → EReal) (ix1 q) = (0 : EReal) := by
    rw [hz]
    show Ideal.ofBits .f32 0x00000000#32 = 0
    exact Ideal.ofBits_zero_f32
  show k1_pay1 (F := Ideal) (iblk1 V c 0 t) (iblk1 V c 1 t) (iblk1 V c 2 t) (ix2 p q)
    = Cert.RefOps.linRef (F := Ideal) (V c main_v25) (V c main_arg6) (((cfg1.win 3).blk t).view.emb (ix2 p q))
  rw [hemb, linRef_apply, k1_pay1_apply, iblk1_2_apply, hb, add_zero]
  refine Finset.sum_congr rfl fun k _ => ?_
  rw [iblk1_0_apply V c t p k ⟨t.val * 5000 + p.val, hr⟩ rfl, iblk1_1_apply]

theorem covered1_3 (i : S100000x128.Idx) : ∃ t : Fin cfg1.N, (cfg1.win 3).flush t = true ∧ i ∈ ((cfg1.win 3).blk t).view.set := by
  have hi0 : (i 0).val < 100000 := (i 0).isLt
  let t : Fin cfg1.N := ⟨(i 0).val / 5000, by show (i 0).val / 5000 < 20; omega⟩
  obtain ⟨-, -, -, -, -, e0, e1⟩ := idx_facts1 t
  refine ⟨t, flush1_3 t, ?_⟩
  show i ∈ ((View.whole main_v26).slice (win1_3.rect t)).set
  rw [View.set_slice_whole, Rect.mem_set_unit]
  exact rowTile_mem _ i e0 e1

theorem arrAt1_3 (c : Dev nD)
    (hz : V c main_v1 = broadcastInDim S128 ![] bcast_S_S128 (constant (F := Ideal) S_ .f32 0x00000000#32)) :
    (dat1 (F := Ideal) V c).arrAt 3 cfg1.N = Cert.RefOps.linRef (F := Ideal) (V c main_v25) (V c main_arg6) :=
  (dat1 (F := Ideal) V c).arrAt_eq_of_cover 3 _ (fun t _ => flushed1_3_eq V c hz t) covered1_3

end

end Cert.KernelIdeal.Fr

end
-- ==== Proof.ValLin3.lean ====
import proofs.«400973_j32538672234673_1_alg».proof.Proof.FrLin3
import proofs.«400973_j32538672234673_1_alg».proof.Proof.ValLinCommon

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

section
variable (V : (c : Dev nD) → (b : Ref sig .tc) → Buf (Elt Ideal) ((c : Thread nD τ).loc b))

theorem k3_pay1_apply (x : Vec Ideal S5000x128 .f32) (w : Vec Ideal S128x128 .f32) (b : Vec Ideal S128 .f32) (p : Fin 5000) (q : Fin 128) :
    k3_pay1 (F := Ideal) x w b (ix2 p q) = (∑ k : Fin 128, x (ix2 p k) * w (ix2 k q)) + b (ix1 q) := by
  unfold k3_pay1
  rw [shapeCast_self, shapeCast_self]
  exact congrArg₂ (· + ·)
    (matmul_tile_apply (truncf .bf16 (x : FVec Ideal S5000x128 .f32) bitsLt_bf16_f32) (truncf .bf16 (w : FVec Ideal S128x128 .f32) bitsLt_bf16_f32) p q)
    (bias_tile_apply b p q)

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

theorem iblk3_0_apply (c : Dev nD) (t : Fin cfg3.N) (p : Fin 5000) (k : Fin 128) (r : Fin 100000) (hr : r.val = t.val * 5000 + p.val) :
    (iblk3 V c 0 t : Vec Ideal S5000x128 .f32) (ix2 p k) = (V c main_v40 : S100000x128.Idx → Elt Ideal .f32) (ix2 r k) := by
  obtain ⟨e0, e1, -⟩ := idx_facts3 t
  exact congrArg (V c main_v40) ((eq_ix2 _).trans (congrArg₂ ix2 (Fin.ext (by show win3_0.index t (0 : Fin 2) * 5000 + 1 * p.val = r.val; omega)) (Fin.ext (by show win3_0.index t (1 : Fin 2) * 128 + 1 * k.val = k.val; omega))))

theorem iblk3_1_apply (c : Dev nD) (t : Fin cfg3.N) (k : Fin 128) (q : Fin 128) :
    (iblk3 V c 1 t : Vec Ideal S128x128 .f32) (ix2 k q) = (V c main_arg8 : S128x128.Idx → Elt Ideal .f32) (ix2 k q) := by
  obtain ⟨-, -, e0, e1, -⟩ := idx_facts3 t
  exact congrArg (V c main_arg8) ((eq_ix2 _).trans (congrArg₂ ix2 (Fin.ext (by show win3_1.index t (0 : Fin 2) * 128 + 1 * k.val = k.val; omega)) (Fin.ext (by show win3_1.index t (1 : Fin 2) * 128 + 1 * q.val = q.val; omega))))

theorem iblk3_2_apply (c : Dev nD) (t : Fin cfg3.N) (q : Fin 128) :
    (iblk3 V c 2 t : Vec Ideal S128 .f32) (ix1 q) = (V c main_v1 : S128.Idx → Elt Ideal .f32) (ix1 q) := by
  obtain ⟨-, -, -, -, e0, -⟩ := idx_facts3 t
  show V c main_v1 (((cfg3.win 2).blk t).view.emb (ix1 q)) = _
  refine congrArg (V c main_v1) (funext fun a => Fin.ext ?_)
  match a with
  | ⟨0, _⟩ => show win3_2.index t (0 : Fin 1) * 128 + 1 * q.val = q.val; rw [e0]; omega

theorem flushed3_3_eq (c : Dev nD)
    (hz : V c main_v1 = broadcastInDim S128 ![] bcast_S_S128 (constant (F := Ideal) S_ .f32 0x00000000#32)) (t : Fin cfg3.N) :
    (dat3 (F := Ideal) V c).flushed 3 t = ((cfg3.win 3).blk t).view.read (Elt Ideal)
      (Cert.RefOps.linRef (F := Ideal) (V c main_v40) (V c main_arg8)) := by
  show (cfg3.win 3).cut (grid3.coords t) ((dat3 V c).after 3 t) = _
  rw [after3_3]
  unfold out3_3
  rw [View.canon_unit_zero zerosPair]
  simp only [View.ld_unit_zero (S := S5000x128) zerosPair, View.ld_unit_zero (S := S128x128) zerosPair, View.ld_unit_zero (S := S128) zerosSingle]
  funext j
  obtain ⟨p, q, rfl⟩ : ∃ (p : Fin 5000) (q : Fin 128), j = ix2 p q := ⟨j 0, j 1, eq_ix2 j⟩
  have hr : t.val * 5000 + p.val < 100000 := by have := t.isLt; have : t.val < 20 := this; omega
  obtain ⟨-, -, -, -, -, e0, e1⟩ := idx_facts3 t
  have hemb : ((cfg3.win 3).blk t).view.emb (ix2 p q) = (ix2 (⟨t.val * 5000 + p.val, hr⟩ : Fin 100000) q : S100000x128.Idx) :=
    (eq_ix2 _).trans (congrArg₂ ix2 (Fin.ext (by show win3_3.index t (0 : Fin 2) * 5000 + 1 * p.val = t.val * 5000 + p.val; omega)) (Fin.ext (by show win3_3.index t (1 : Fin 2) * 128 + 1 * q.val = q.val; omega)))
  have hb : (V c main_v1 : S128.Idx → EReal) (ix1 q) = (0 : EReal) := by
    rw [hz]
    show Ideal.ofBits .f32 0x00000000#32 = 0
    exact Ideal.ofBits_zero_f32
  show k3_pay1 (F := Ideal) (iblk3 V c 0 t) (iblk3 V c 1 t) (iblk3 V c 2 t) (ix2 p q)
    = Cert.RefOps.linRef (F := Ideal) (V c main_v40) (V c main_arg8) (((cfg3.win 3).blk t).view.emb (ix2 p q))
  rw [hemb, linRef_apply, k3_pay1_apply, iblk3_2_apply, hb, add_zero]
  refine Finset.sum_congr rfl fun k _ => ?_
  rw [iblk3_0_apply V c t p k ⟨t.val * 5000 + p.val, hr⟩ rfl, iblk3_1_apply]

theorem covered3_3 (i : S100000x128.Idx) : ∃ t : Fin cfg3.N, (cfg3.win 3).flush t = true ∧ i ∈ ((cfg3.win 3).blk t).view.set := by
  have hi0 : (i 0).val < 100000 := (i 0).isLt
  let t : Fin cfg3.N := ⟨(i 0).val / 5000, by show (i 0).val / 5000 < 20; omega⟩
  obtain ⟨-, -, -, -, -, e0, e1⟩ := idx_facts3 t
  refine ⟨t, flush3_3 t, ?_⟩
  show i ∈ ((View.whole main_v41).slice (win3_3.rect t)).set
  rw [View.set_slice_whole, Rect.mem_set_unit]
  exact rowTile_mem _ i e0 e1

theorem arrAt3_3 (c : Dev nD)
    (hz : V c main_v1 = broadcastInDim S128 ![] bcast_S_S128 (constant (F := Ideal) S_ .f32 0x00000000#32)) :
    (dat3 (F := Ideal) V c).arrAt 3 cfg3.N = Cert.RefOps.linRef (F := Ideal) (V c main_v40) (V c main_arg8) :=
  (dat3 (F := Ideal) V c).arrAt_eq_of_cover 3 _ (fun t _ => flushed3_3_eq V c hz t) covered3_3

end

end Cert.KernelIdeal.Fr

end
-- ==== Proof.ValLin5.lean ====
import proofs.«400973_j32538672234673_1_alg».proof.Proof.FrLin5
import proofs.«400973_j32538672234673_1_alg».proof.Proof.ValLinCommon

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

section
variable (V : (c : Dev nD) → (b : Ref sig .tc) → Buf (Elt Ideal) ((c : Thread nD τ).loc b))

theorem k5_pay1_apply (x : Vec Ideal S5000x128 .f32) (w : Vec Ideal S128x128 .f32) (b : Vec Ideal S128 .f32) (p : Fin 5000) (q : Fin 128) :
    k5_pay1 (F := Ideal) x w b (ix2 p q) = (∑ k : Fin 128, x (ix2 p k) * w (ix2 k q)) + b (ix1 q) := by
  unfold k5_pay1
  rw [shapeCast_self, shapeCast_self]
  exact congrArg₂ (· + ·)
    (matmul_tile_apply (truncf .bf16 (x : FVec Ideal S5000x128 .f32) bitsLt_bf16_f32) (truncf .bf16 (w : FVec Ideal S128x128 .f32) bitsLt_bf16_f32) p q)
    (bias_tile_apply b p q)

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

theorem iblk5_0_apply (c : Dev nD) (t : Fin cfg5.N) (p : Fin 5000) (k : Fin 128) (r : Fin 100000) (hr : r.val = t.val * 5000 + p.val) :
    (iblk5 V c 0 t : Vec Ideal S5000x128 .f32) (ix2 p k) = (V c main_v55 : S100000x128.Idx → Elt Ideal .f32) (ix2 r k) := by
  obtain ⟨e0, e1, -⟩ := idx_facts5 t
  exact congrArg (V c main_v55) ((eq_ix2 _).trans (congrArg₂ ix2 (Fin.ext (by show win5_0.index t (0 : Fin 2) * 5000 + 1 * p.val = r.val; omega)) (Fin.ext (by show win5_0.index t (1 : Fin 2) * 128 + 1 * k.val = k.val; omega))))

theorem iblk5_1_apply (c : Dev nD) (t : Fin cfg5.N) (k : Fin 128) (q : Fin 128) :
    (iblk5 V c 1 t : Vec Ideal S128x128 .f32) (ix2 k q) = (V c main_arg10 : S128x128.Idx → Elt Ideal .f32) (ix2 k q) := by
  obtain ⟨-, -, e0, e1, -⟩ := idx_facts5 t
  exact congrArg (V c main_arg10) ((eq_ix2 _).trans (congrArg₂ ix2 (Fin.ext (by show win5_1.index t (0 : Fin 2) * 128 + 1 * k.val = k.val; omega)) (Fin.ext (by show win5_1.index t (1 : Fin 2) * 128 + 1 * q.val = q.val; omega))))

theorem iblk5_2_apply (c : Dev nD) (t : Fin cfg5.N) (q : Fin 128) :
    (iblk5 V c 2 t : Vec Ideal S128 .f32) (ix1 q) = (V c main_v1 : S128.Idx → Elt Ideal .f32) (ix1 q) := by
  obtain ⟨-, -, -, -, e0, -⟩ := idx_facts5 t
  show V c main_v1 (((cfg5.win 2).blk t).view.emb (ix1 q)) = _
  refine congrArg (V c main_v1) (funext fun a => Fin.ext ?_)
  match a with
  | ⟨0, _⟩ => show win5_2.index t (0 : Fin 1) * 128 + 1 * q.val = q.val; rw [e0]; omega

theorem flushed5_3_eq (c : Dev nD)
    (hz : V c main_v1 = broadcastInDim S128 ![] bcast_S_S128 (constant (F := Ideal) S_ .f32 0x00000000#32)) (t : Fin cfg5.N) :
    (dat5 (F := Ideal) V c).flushed 3 t = ((cfg5.win 3).blk t).view.read (Elt Ideal)
      (Cert.RefOps.linRef (F := Ideal) (V c main_v55) (V c main_arg10)) := by
  show (cfg5.win 3).cut (grid5.coords t) ((dat5 V c).after 3 t) = _
  rw [after5_3]
  unfold out5_3
  rw [View.canon_unit_zero zerosPair]
  simp only [View.ld_unit_zero (S := S5000x128) zerosPair, View.ld_unit_zero (S := S128x128) zerosPair, View.ld_unit_zero (S := S128) zerosSingle]
  funext j
  obtain ⟨p, q, rfl⟩ : ∃ (p : Fin 5000) (q : Fin 128), j = ix2 p q := ⟨j 0, j 1, eq_ix2 j⟩
  have hr : t.val * 5000 + p.val < 100000 := by have := t.isLt; have : t.val < 20 := this; omega
  obtain ⟨-, -, -, -, -, e0, e1⟩ := idx_facts5 t
  have hemb : ((cfg5.win 3).blk t).view.emb (ix2 p q) = (ix2 (⟨t.val * 5000 + p.val, hr⟩ : Fin 100000) q : S100000x128.Idx) :=
    (eq_ix2 _).trans (congrArg₂ ix2 (Fin.ext (by show win5_3.index t (0 : Fin 2) * 5000 + 1 * p.val = t.val * 5000 + p.val; omega)) (Fin.ext (by show win5_3.index t (1 : Fin 2) * 128 + 1 * q.val = q.val; omega)))
  have hb : (V c main_v1 : S128.Idx → EReal) (ix1 q) = (0 : EReal) := by
    rw [hz]
    show Ideal.ofBits .f32 0x00000000#32 = 0
    exact Ideal.ofBits_zero_f32
  show k5_pay1 (F := Ideal) (iblk5 V c 0 t) (iblk5 V c 1 t) (iblk5 V c 2 t) (ix2 p q)
    = Cert.RefOps.linRef (F := Ideal) (V c main_v55) (V c main_arg10) (((cfg5.win 3).blk t).view.emb (ix2 p q))
  rw [hemb, linRef_apply, k5_pay1_apply, iblk5_2_apply, hb, add_zero]
  refine Finset.sum_congr rfl fun k _ => ?_
  rw [iblk5_0_apply V c t p k ⟨t.val * 5000 + p.val, hr⟩ rfl, iblk5_1_apply]

theorem covered5_3 (i : S100000x128.Idx) : ∃ t : Fin cfg5.N, (cfg5.win 3).flush t = true ∧ i ∈ ((cfg5.win 3).blk t).view.set := by
  have hi0 : (i 0).val < 100000 := (i 0).isLt
  let t : Fin cfg5.N := ⟨(i 0).val / 5000, by show (i 0).val / 5000 < 20; omega⟩
  obtain ⟨-, -, -, -, -, e0, e1⟩ := idx_facts5 t
  refine ⟨t, flush5_3 t, ?_⟩
  show i ∈ ((View.whole main_v56).slice (win5_3.rect t)).set
  rw [View.set_slice_whole, Rect.mem_set_unit]
  exact rowTile_mem _ i e0 e1

theorem arrAt5_3 (c : Dev nD)
    (hz : V c main_v1 = broadcastInDim S128 ![] bcast_S_S128 (constant (F := Ideal) S_ .f32 0x00000000#32)) :
    (dat5 (F := Ideal) V c).arrAt 3 cfg5.N = Cert.RefOps.linRef (F := Ideal) (V c main_v55) (V c main_arg10) :=
  (dat5 (F := Ideal) V c).arrAt_eq_of_cover 3 _ (fun t _ => flushed5_3_eq V c hz t) covered5_3

end

end Cert.KernelIdeal.Fr

end
-- ==== Proof.ValFusRef.lean ====
import proofs.«400973_j32538672234673_1_alg».proof.Proof.RefOps
import Idealize.ShloMosaic.Lib.Pipeline.Value
import Idealize.ShloMosaic.Lib.ValueIdx
import Idealize.ShloMosaic.Lib.ValueLayout

noncomputable section

namespace Cert.KernelIdeal.Fr

open Idealize.ShloMosaic Idealize.ShloMosaic.TcCoe Idealize.ShloMosaic.ValueIdx

theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem fusRef_at (A H : Cert.RefOps.Arr Ideal Cert.ReferenceIdeal.S100000x128 .f32)
    (D : Cert.RefOps.Arr Ideal Cert.ReferenceIdeal.S100000x1 .f32) (B : Cert.RefOps.Arr Ideal Cert.ReferenceIdeal.S128 .f32)
    (r : Fin 100000) (q : Fin 128) :
    Cert.RefOps.fusRef (F := Ideal) A H D B (ix2 r q)
      = max (A (ix2 r q) + H (ix2 r q) * D (ix2 r (0 : Fin 1)) + B (ix1 q)) (Ideal.ofBits .f32 0x00000000#32) := by
  unfold Cert.RefOps.fusRef Cert.RefOps.biasRows Cert.RefOps.zeroRows
  simp only [maximumf_apply, addf_apply, mulf_apply]
  rw [broadcastInDim_apply _ Cert.ReferenceIdeal.Gen.bcast_S100000x1_S100000x128_0_1 D (ix2 r q) (ix2 r (0 : Fin 1))
      (fun a => by match a with | ⟨0, _⟩ => rfl | ⟨1, _⟩ => rfl),
    broadcastInDim_apply _ Cert.ReferenceIdeal.Gen.bcast_S1x128_S100000x128_0_1 _ (ix2 r q) (ix2 (0 : Fin 1) q)
      (fun a => by match a with | ⟨0, _⟩ => rfl | ⟨1, _⟩ => rfl),
    broadcastInDim_apply _ Cert.ReferenceIdeal.Gen.bcast_S128_S1x128_1 B (ix2 (0 : Fin 1) q) (ix1 q)
      (fun a => by match a with | ⟨0, _⟩ => rfl),
    broadcastInDim_apply _ Cert.ReferenceIdeal.Gen.bcast_S_S100000x128 _ (ix2 r q) ix0 (fun a => a.elim0)]
  rfl

end Cert.KernelIdeal.Fr

end
-- ==== Proof.ValFus2.lean ====
import proofs.«400973_j32538672234673_1_alg».proof.Proof.FrFus2
import proofs.«400973_j32538672234673_1_alg».proof.Proof.ValFusRef
import proofs.«400973_j32538672234673_1_alg».proof.Proof.ValLinCommon

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

theorem k2_pay1_at (x0 x1 : Vec Ideal S5000x128 .f32) (x2 : Vec Ideal S5000x1 .f32) (x3 : Vec Ideal S128 .f32)
    (p : Fin 5000) (q : Fin 128) :
    k2_pay1 x0 x1 x2 x3 (ix2 p q)
      = max (x0 (ix2 p q) + x1 (ix2 p q) * x2 (ix2 p (0 : Fin 1)) + x3 (ix1 q)) (Ideal.ofBits .f32 0x00000000#32) := by
  unfold k2_pay1
  simp only [shapeCast_self, maximumf_apply, addf_apply, mulf_apply, broadcast_apply]
  rw [broadcastTo_col_apply x2 broadcasts_S5000x1_S5000x128 p q,
    broadcastTo_1b_ab_apply _ broadcasts_S1x128_S5000x128 p q,
    shapeCast_a_1a_apply x3 shapeCasts_S128_S1x128 (0 : Fin 1) q]
  rfl

section
variable (V : (c : Dev nD) → (b : Ref sig .tc) → Buf (Elt Ideal) ((c : Thread nD τ).loc b))

theorem cfg2_idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

theorem out2_4_flushed (c : Dev nD) (t : Fin cfg2.N) :
    (dat2 (F := Ideal) V c).flushed 4 t = ((cfg2.win 4).blk t).view.read (Elt Ideal)
      (Cert.RefOps.fusRef (F := Ideal) (V c main_v39) (V c main_v26) (V c main_v24) (V c main_arg7)) := by
  show (cfg2.win 4).cut (grid2.coords t) ((dat2 V c).after 4 t) = _
  rw [after2_4]
  unfold out2_4
  rw [View.canon_unit_zero zerosPair]
  simp only [View.ld_unit_zero (S := S5000x128) zerosPair, View.ld_unit_zero (S := S5000x1) zerosPair,
    View.ld_unit_zero (S := S128) zerosSingle]
  have hN : t.val < 20 := lt_of_lt_of_eq t.isLt (by decide : grid2.N = 20)
  obtain ⟨e00, e01, e10, e11, e20, e21, e30, e40, e41⟩ := cfg2_idx t
  funext j
  obtain ⟨p, q, rfl⟩ : ∃ (p : Fin 5000) (q : Fin 128), j = ix2 p q := ⟨j 0, j 1, eq_ix2 j⟩
  have hp : p.val < 5000 := p.isLt
  show k2_pay1 (iblk2 V c 0 t) (iblk2 V c 1 t) (iblk2 V c 2 t) (iblk2 V c 3 t) (ix2 p q)
    = Cert.RefOps.fusRef (F := Ideal) (V c main_v39) (V c main_v26) (V c main_v24) (V c main_arg7)
        (((cfg2.win 4).blk t).view.emb (ix2 p q))
  have h4 : ((cfg2.win 4).blk t).view.emb (ix2 p q) = ix2 (⟨5000 * t.val + p.val, by omega⟩ : Fin 100000) q :=
    (eq_ix2 _).trans (congrArg₂ ix2 (Fin.ext (by show win2_4.index t (0 : Fin 2) * 5000 + 1 * p.val = 5000 * t.val + p.val; omega)) (Fin.ext (by show win2_4.index t (1 : Fin 2) * 128 + 1 * q.val = q.val; omega)))
  have h0 : iblk2 V c 0 t (ix2 p q) = V c main_v39 (ix2 (⟨5000 * t.val + p.val, by omega⟩ : Fin 100000) q) :=
    congrArg (V c main_v39) ((eq_ix2 _).trans (congrArg₂ ix2 (Fin.ext (by show win2_0.index t (0 : Fin 2) * 5000 + 1 * p.val = 5000 * t.val + p.val; omega)) (Fin.ext (by show win2_0.index t (1 : Fin 2) * 128 + 1 * q.val = q.val; omega))))
  have h1 : iblk2 V c 1 t (ix2 p q) = V c main_v26 (ix2 (⟨5000 * t.val + p.val, by omega⟩ : Fin 100000) q) :=
    congrArg (V c main_v26) ((eq_ix2 _).trans (congrArg₂ ix2 (Fin.ext (by show win2_1.index t (0 : Fin 2) * 5000 + 1 * p.val = 5000 * t.val + p.val; omega)) (Fin.ext (by show win2_1.index t (1 : Fin 2) * 128 + 1 * q.val = q.val; omega))))
  have h2 : iblk2 V c 2 t (ix2 p (0 : Fin 1))
      = V c main_v24 (ix2 (⟨5000 * t.val + p.val, by omega⟩ : Fin 100000) (0 : Fin 1)) :=
    congrArg (V c main_v24) ((eq_ix2 _).trans (congrArg₂ ix2 (Fin.ext (by show win2_2.index t (0 : Fin 2) * 5000 + 1 * p.val = 5000 * t.val + p.val; omega)) (Fin.ext (by show win2_2.index t (1 : Fin 2) * 1 + 1 * 0 = 0; omega))))
  have h3 : iblk2 V c 3 t (ix1 q) = V c main_arg7 (ix1 q) := by
    show V c main_arg7 (((cfg2.win 3).blk t).view.emb (ix1 q)) = _
    refine congrArg _ ?_
    funext a; apply Fin.ext
    match a with
    | ⟨0, _⟩ => show win2_3.index t (0 : Fin 1) * 128 + 1 * q.val = q.val; omega
  rw [k2_pay1_at, h4, fusRef_at, h0, h1, h2, h3]

theorem cfg2_cover (i : S100000x128.Idx) :
    ∃ t : Fin cfg2.N, (cfg2.win 4).flush t = true ∧ i ∈ ((cfg2.win 4).blk t).view.set := by
  have hi0 : (i 0).val < 100000 := (i 0).isLt
  let t : Fin cfg2.N := ⟨(i 0).val / 5000, by show (i 0).val / 5000 < 20; omega⟩
  obtain ⟨-, -, -, -, -, -, -, e0, e1⟩ := cfg2_idx t
  refine ⟨t, flush2_4 t, ?_⟩
  show i ∈ ((View.whole main_v40).slice (win2_4.rect t)).set
  rw [View.set_slice_whole, Rect.mem_set_unit]
  exact rowTile_mem _ i e0 e1

theorem arrAt2_4 (c : Dev nD) : (dat2 (F := Ideal) V c).arrAt 4 cfg2.N
    = Cert.RefOps.fusRef (F := Ideal) (V c main_v39) (V c main_v26) (V c main_v24) (V c main_arg7) :=
  (dat2 (F := Ideal) V c).arrAt_eq_of_cover 4 _ (fun t _ => out2_4_flushed V c t) (cfg2_cover)

end

end Cert.KernelIdeal.Fr

end
-- ==== Proof.ValFus4.lean ====
import proofs.«400973_j32538672234673_1_alg».proof.Proof.FrFus4
import proofs.«400973_j32538672234673_1_alg».proof.Proof.ValFusRef
import proofs.«400973_j32538672234673_1_alg».proof.Proof.ValLinCommon

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

theorem k4_pay1_at (x0 x1 : Vec Ideal S5000x128 .f32) (x2 : Vec Ideal S5000x1 .f32) (x3 : Vec Ideal S128 .f32)
    (p : Fin 5000) (q : Fin 128) :
    k4_pay1 x0 x1 x2 x3 (ix2 p q)
      = max (x0 (ix2 p q) + x1 (ix2 p q) * x2 (ix2 p (0 : Fin 1)) + x3 (ix1 q)) (Ideal.ofBits .f32 0x00000000#32) := by
  unfold k4_pay1
  simp only [shapeCast_self, maximumf_apply, addf_apply, mulf_apply, broadcast_apply]
  rw [broadcastTo_col_apply x2 broadcasts_S5000x1_S5000x128 p q,
    broadcastTo_1b_ab_apply _ broadcasts_S1x128_S5000x128 p q,
    shapeCast_a_1a_apply x3 shapeCasts_S128_S1x128 (0 : Fin 1) q]
  rfl

section
variable (V : (c : Dev nD) → (b : Ref sig .tc) → Buf (Elt Ideal) ((c : Thread nD τ).loc b))

theorem cfg4_idx : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 1) = 0
    ∧ win4_4.index t (0 : Fin 2) = t.val ∧ win4_4.index t (1 : Fin 2) = 0 :=
  (by decide +kernel : ∀ t : Fin grid4.N, _)

theorem out4_4_flushed (c : Dev nD) (t : Fin cfg4.N) :
    (dat4 (F := Ideal) V c).flushed 4 t = ((cfg4.win 4).blk t).view.read (Elt Ideal)
      (Cert.RefOps.fusRef (F := Ideal) (V c main_v54) (V c main_v41) (V c main_v24) (V c main_arg9)) := by
  show (cfg4.win 4).cut (grid4.coords t) ((dat4 V c).after 4 t) = _
  rw [after4_4]
  unfold out4_4
  rw [View.canon_unit_zero zerosPair]
  simp only [View.ld_unit_zero (S := S5000x128) zerosPair, View.ld_unit_zero (S := S5000x1) zerosPair,
    View.ld_unit_zero (S := S128) zerosSingle]
  have hN : t.val < 20 := lt_of_lt_of_eq t.isLt (by decide : grid4.N = 20)
  obtain ⟨e00, e01, e10, e11, e20, e21, e30, e40, e41⟩ := cfg4_idx t
  funext j
  obtain ⟨p, q, rfl⟩ : ∃ (p : Fin 5000) (q : Fin 128), j = ix2 p q := ⟨j 0, j 1, eq_ix2 j⟩
  have hp : p.val < 5000 := p.isLt
  show k4_pay1 (iblk4 V c 0 t) (iblk4 V c 1 t) (iblk4 V c 2 t) (iblk4 V c 3 t) (ix2 p q)
    = Cert.RefOps.fusRef (F := Ideal) (V c main_v54) (V c main_v41) (V c main_v24) (V c main_arg9)
        (((cfg4.win 4).blk t).view.emb (ix2 p q))
  have h4 : ((cfg4.win 4).blk t).view.emb (ix2 p q) = ix2 (⟨5000 * t.val + p.val, by omega⟩ : Fin 100000) q :=
    (eq_ix2 _).trans (congrArg₂ ix2 (Fin.ext (by show win4_4.index t (0 : Fin 2) * 5000 + 1 * p.val = 5000 * t.val + p.val; omega)) (Fin.ext (by show win4_4.index t (1 : Fin 2) * 128 + 1 * q.val = q.val; omega)))
  have h0 : iblk4 V c 0 t (ix2 p q) = V c main_v54 (ix2 (⟨5000 * t.val + p.val, by omega⟩ : Fin 100000) q) :=
    congrArg (V c main_v54) ((eq_ix2 _).trans (congrArg₂ ix2 (Fin.ext (by show win4_0.index t (0 : Fin 2) * 5000 + 1 * p.val = 5000 * t.val + p.val; omega)) (Fin.ext (by show win4_0.index t (1 : Fin 2) * 128 + 1 * q.val = q.val; omega))))
  have h1 : iblk4 V c 1 t (ix2 p q) = V c main_v41 (ix2 (⟨5000 * t.val + p.val, by omega⟩ : Fin 100000) q) :=
    congrArg (V c main_v41) ((eq_ix2 _).trans (congrArg₂ ix2 (Fin.ext (by show win4_1.index t (0 : Fin 2) * 5000 + 1 * p.val = 5000 * t.val + p.val; omega)) (Fin.ext (by show win4_1.index t (1 : Fin 2) * 128 + 1 * q.val = q.val; omega))))
  have h2 : iblk4 V c 2 t (ix2 p (0 : Fin 1))
      = V c main_v24 (ix2 (⟨5000 * t.val + p.val, by omega⟩ : Fin 100000) (0 : Fin 1)) :=
    congrArg (V c main_v24) ((eq_ix2 _).trans (congrArg₂ ix2 (Fin.ext (by show win4_2.index t (0 : Fin 2) * 5000 + 1 * p.val = 5000 * t.val + p.val; omega)) (Fin.ext (by show win4_2.index t (1 : Fin 2) * 1 + 1 * 0 = 0; omega))))
  have h3 : iblk4 V c 3 t (ix1 q) = V c main_arg9 (ix1 q) := by
    show V c main_arg9 (((cfg4.win 3).blk t).view.emb (ix1 q)) = _
    refine congrArg _ ?_
    funext a; apply Fin.ext
    match a with
    | ⟨0, _⟩ => show win4_3.index t (0 : Fin 1) * 128 + 1 * q.val = q.val; omega
  rw [k4_pay1_at, h4, fusRef_at, h0, h1, h2, h3]

theorem cfg4_cover (i : S100000x128.Idx) :
    ∃ t : Fin cfg4.N, (cfg4.win 4).flush t = true ∧ i ∈ ((cfg4.win 4).blk t).view.set := by
  have hi0 : (i 0).val < 100000 := (i 0).isLt
  let t : Fin cfg4.N := ⟨(i 0).val / 5000, by show (i 0).val / 5000 < 20; omega⟩
  obtain ⟨-, -, -, -, -, -, -, e0, e1⟩ := cfg4_idx t
  refine ⟨t, flush4_4 t, ?_⟩
  show i ∈ ((View.whole main_v55).slice (win4_4.rect t)).set
  rw [View.set_slice_whole, Rect.mem_set_unit]
  exact rowTile_mem _ i e0 e1

theorem arrAt4_4 (c : Dev nD) : (dat4 (F := Ideal) V c).arrAt 4 cfg4.N
    = Cert.RefOps.fusRef (F := Ideal) (V c main_v54) (V c main_v41) (V c main_v24) (V c main_arg9) :=
  (dat4 (F := Ideal) V c).arrAt_eq_of_cover 4 _ (fun t _ => out4_4_flushed V c t) (cfg4_cover)

end

end Cert.KernelIdeal.Fr

end
-- ==== Proof.ValFus6.lean ====
import proofs.«400973_j32538672234673_1_alg».proof.Proof.FrFus6
import proofs.«400973_j32538672234673_1_alg».proof.Proof.ValFusRef
import proofs.«400973_j32538672234673_1_alg».proof.Proof.ValLinCommon

noncomputable section

namespace Cert.KernelIdeal.Fr

open Cert.KernelIdeal Cert.KernelIdeal.Gen
open Idealize.ShloMosaic Idealize.ShloMosaic.TcCoe Idealize.ShloMosaic.ValueIdx
open Idealize.ShloMosaic.Pipeline (Dat)

theorem k6_pay1_at (x0 x1 : Vec Ideal S5000x128 .f32) (x2 : Vec Ideal S5000x1 .f32) (x3 : Vec Ideal S128 .f32)
    (p : Fin 5000) (q : Fin 128) :
    k6_pay1 x0 x1 x2 x3 (ix2 p q)
      = max (x0 (ix2 p q) + x1 (ix2 p q) * x2 (ix2 p (0 : Fin 1)) + x3 (ix1 q)) (Ideal.ofBits .f32 0x00000000#32) := by
  unfold k6_pay1
  simp only [shapeCast_self, maximumf_apply, addf_apply, mulf_apply, broadcast_apply]
  rw [broadcastTo_col_apply x2 broadcasts_S5000x1_S5000x128 p q,
    broadcastTo_1b_ab_apply _ broadcasts_S1x128_S5000x128 p q,
    shapeCast_a_1a_apply x3 shapeCasts_S128_S1x128 (0 : Fin 1) q]
  rfl

section
variable (V : (c : Dev nD) → (b : Ref sig .tc) → Buf (Elt Ideal) ((c : Thread nD τ).loc b))

theorem cfg6_idx : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 1) = 0
    ∧ win6_4.index t (0 : Fin 2) = t.val ∧ win6_4.index t (1 : Fin 2) = 0 :=
  (by decide +kernel : ∀ t : Fin grid6.N, _)

theorem out6_4_flushed (c : Dev nD) (t : Fin cfg6.N) :
    (dat6 (F := Ideal) V c).flushed 4 t = ((cfg6.win 4).blk t).view.read (Elt Ideal)
      (Cert.RefOps.fusRef (F := Ideal) (V c main_v69) (V c main_v56) (V c main_v24) (V c main_arg11)) := by
  show (cfg6.win 4).cut (grid6.coords t) ((dat6 V c).after 4 t) = _
  rw [after6_4]
  unfold out6_4
  rw [View.canon_unit_zero zerosPair]
  simp only [View.ld_unit_zero (S := S5000x128) zerosPair, View.ld_unit_zero (S := S5000x1) zerosPair,
    View.ld_unit_zero (S := S128) zerosSingle]
  have hN : t.val < 20 := lt_of_lt_of_eq t.isLt (by decide : grid6.N = 20)
  obtain ⟨e00, e01, e10, e11, e20, e21, e30, e40, e41⟩ := cfg6_idx t
  funext j
  obtain ⟨p, q, rfl⟩ : ∃ (p : Fin 5000) (q : Fin 128), j = ix2 p q := ⟨j 0, j 1, eq_ix2 j⟩
  have hp : p.val < 5000 := p.isLt
  show k6_pay1 (iblk6 V c 0 t) (iblk6 V c 1 t) (iblk6 V c 2 t) (iblk6 V c 3 t) (ix2 p q)
    = Cert.RefOps.fusRef (F := Ideal) (V c main_v69) (V c main_v56) (V c main_v24) (V c main_arg11)
        (((cfg6.win 4).blk t).view.emb (ix2 p q))
  have h4 : ((cfg6.win 4).blk t).view.emb (ix2 p q) = ix2 (⟨5000 * t.val + p.val, by omega⟩ : Fin 100000) q :=
    (eq_ix2 _).trans (congrArg₂ ix2 (Fin.ext (by show win6_4.index t (0 : Fin 2) * 5000 + 1 * p.val = 5000 * t.val + p.val; omega)) (Fin.ext (by show win6_4.index t (1 : Fin 2) * 128 + 1 * q.val = q.val; omega)))
  have h0 : iblk6 V c 0 t (ix2 p q) = V c main_v69 (ix2 (⟨5000 * t.val + p.val, by omega⟩ : Fin 100000) q) :=
    congrArg (V c main_v69) ((eq_ix2 _).trans (congrArg₂ ix2 (Fin.ext (by show win6_0.index t (0 : Fin 2) * 5000 + 1 * p.val = 5000 * t.val + p.val; omega)) (Fin.ext (by show win6_0.index t (1 : Fin 2) * 128 + 1 * q.val = q.val; omega))))
  have h1 : iblk6 V c 1 t (ix2 p q) = V c main_v56 (ix2 (⟨5000 * t.val + p.val, by omega⟩ : Fin 100000) q) :=
    congrArg (V c main_v56) ((eq_ix2 _).trans (congrArg₂ ix2 (Fin.ext (by show win6_1.index t (0 : Fin 2) * 5000 + 1 * p.val = 5000 * t.val + p.val; omega)) (Fin.ext (by show win6_1.index t (1 : Fin 2) * 128 + 1 * q.val = q.val; omega))))
  have h2 : iblk6 V c 2 t (ix2 p (0 : Fin 1))
      = V c main_v24 (ix2 (⟨5000 * t.val + p.val, by omega⟩ : Fin 100000) (0 : Fin 1)) :=
    congrArg (V c main_v24) ((eq_ix2 _).trans (congrArg₂ ix2 (Fin.ext (by show win6_2.index t (0 : Fin 2) * 5000 + 1 * p.val = 5000 * t.val + p.val; omega)) (Fin.ext (by show win6_2.index t (1 : Fin 2) * 1 + 1 * 0 = 0; omega))))
  have h3 : iblk6 V c 3 t (ix1 q) = V c main_arg11 (ix1 q) := by
    show V c main_arg11 (((cfg6.win 3).blk t).view.emb (ix1 q)) = _
    refine congrArg _ ?_
    funext a; apply Fin.ext
    match a with
    | ⟨0, _⟩ => show win6_3.index t (0 : Fin 1) * 128 + 1 * q.val = q.val; omega
  rw [k6_pay1_at, h4, fusRef_at, h0, h1, h2, h3]

theorem cfg6_cover (i : S100000x128.Idx) :
    ∃ t : Fin cfg6.N, (cfg6.win 4).flush t = true ∧ i ∈ ((cfg6.win 4).blk t).view.set := by
  have hi0 : (i 0).val < 100000 := (i 0).isLt
  let t : Fin cfg6.N := ⟨(i 0).val / 5000, by show (i 0).val / 5000 < 20; omega⟩
  obtain ⟨-, -, -, -, -, -, -, e0, e1⟩ := cfg6_idx t
  refine ⟨t, flush6_4 t, ?_⟩
  show i ∈ ((View.whole main_v70).slice (win6_4.rect t)).set
  rw [View.set_slice_whole, Rect.mem_set_unit]
  exact rowTile_mem _ i e0 e1

theorem arrAt6_4 (c : Dev nD) : (dat6 (F := Ideal) V c).arrAt 4 cfg6.N
    = Cert.RefOps.fusRef (F := Ideal) (V c main_v69) (V c main_v56) (V c main_v24) (V c main_arg11) :=
  (dat6 (F := Ideal) V c).arrAt_eq_of_cover 4 _ (fun t _ => out6_4_flushed V c t) (cfg6_cover)

end

end Cert.KernelIdeal.Fr

end
-- ==== Proof.ValPool7.lean ====
import proofs.«400973_j32538672234673_1_alg».proof.Proof.FrPool7
import Idealize.ShloMosaic.Lib.Pipeline.Value
import Idealize.ShloMosaic.Lib.ValueIdx

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

theorem zero2_7 : (![0, 0] : Fin 2 → ℕ) = fun _ => 0 := funext fun a => by fin_cases a <;> rfl
theorem zero1_7 : (![0] : Fin 1 → ℕ) = fun _ => 0 := funext fun a => by fin_cases a <;> rfl

theorem zero7_eq : zero7 (F := F) = k7_pay1 (F := F) := by
  unfold zero7
  exact View.canon_unit_zero (S := S512x128) zero2_7 inb_S512x128_S512x128_0_0 _

theorem step7_eq (ids : Vec F S5000x1 .i32) (x : Vec F S5000x128 .f32) (a : Vec F S512x128 .f32) :
    step7 ids x a = k7_pay2 ids x a := by
  unfold step7
  rw [View.ld_unit_zero (S := S5000x1) zero2_7,
    View.ld_unit_zero (S := S5000x128) zero2_7,
    View.ld_unit_zero (S := S512x128) zero2_7]
  exact View.canon_unit_zero (S := S512x128) zero2_7 inb_S512x128_S512x128_0_0 _

theorem mlp7_eq (a : Vec F S512x128 .f32) (w1 : Vec F S128x128 .f32) (b1 : Vec F S128 .f32) (w2 : Vec F S128x10 .f32) (b2 : Vec F S10 .f32) :
    mlp7 a w1 b1 w2 b2 = k7_pay3 a w1 b1 w2 b2 := by
  unfold mlp7
  rw [View.ld_unit_zero (S := S512x128) zero2_7,
    View.ld_unit_zero (S := S128x128) zero2_7,
    View.ld_unit_zero (S := S128) zero1_7,
    View.ld_unit_zero (S := S128x10) zero2_7,
    View.ld_unit_zero (S := S10) zero1_7]
  exact View.canon_unit_zero (S := S512x10) zero2_7 inb_S512x10_S512x10_0_0 _

theorem acc7_zero_eq (c : Dev nD) : acc7 V c 0 = k7_pay1 (F := F) := (acc7_zero V c).trans zero7_eq
theorem acc7_succ_eq (c : Dev nD) (t : Fin cfg7.N) :
    acc7 V c (t.val + 1) = k7_pay2 (iblk7 V c 1 t) (iblk7 V c 0 t) (acc7 V c t.val) :=
  (acc7_succ V c t).trans (step7_eq _ _ _)

-- A rectangle of the array's own sizes at zero offsets reads the whole array.
theorem read_block0 (b : Ref sig .tc) {off : Fin b.ty.shape.rank → ℕ} (h : off = fun _ => 0) (f : b.ty.Contents (Elt F)) :
    ((Memref.whole b).access (Rect.unit off b.ty.shape.size fun a => by rw [congrFun h a]; simp) : View sig .tc _ _ _).read (Elt F) f = f :=
  Memref.read_access_unit_zero (Elt F) b h _ f

theorem index7_6 (t : Fin cfg7.N) : (fun a => win7_6.index t a * main_v72.ty.shape.size a) = fun _ => 0 :=
  funext fun a => by fin_cases a <;> rfl

theorem flushed7_6 (c : Dev nD) (t : Fin cfg7.N) (hf : (cfg7.win 6).flush t = true) :
    (dat7 V c).flushed 6 t = ((cfg7.win 6).blk t).view.read (Elt F) (out7_6 V c) := by
  show (cfg7.win 6).cut (grid7.coords t) ((dat7 V c).after 6 t) = _
  rw [after7_6]
  exact (read_block0 main_v72 (index7_6 t) (out7_6 V c)).symm

theorem arrAt7_6 (c : Dev nD) : (dat7 V c).arrAt 6 cfg7.N = out7_6 V c :=
  (dat7 V c).arrAt_eq_of_cover 6 (out7_6 V c) (flushed7_6 V c) fun i =>
    ⟨t19, (flush7_6 t19).mpr rfl, by
      show i ∈ ((View.whole main_v72).slice (win7_6.rect t19)).set
      rw [View.set_slice_whole]
      exact View.mem_set_unit_zero (S := S512x10) (index7_6 t19) _ i⟩

theorem index7_rows : ∀ t : Fin grid7.N,
    win7_0.index t (0 : Fin 2) = t.val ∧ win7_0.index t (1 : Fin 2) = 0
    ∧ win7_1.index t (0 : Fin 2) = t.val ∧ win7_1.index t (1 : Fin 2) = 0 := by decide +kernel

theorem iblk7_0_apply (c : Dev nD) (t : Fin cfg7.N) (p : Fin 5000) (d : Fin 128) (r : Fin 100000) (hr : r.val = 5000 * t.val + p.val) :
    (iblk7 V c 0 t : Vec F S5000x128 .f32) (ix2 p d) = (V c main_v70 : S100000x128.Idx → Elt F .f32) (ix2 r d) := by
  obtain ⟨e0, e1, -⟩ := index7_rows t
  show V c main_v70 (((cfg7.win 0).blk t).view.emb (ix2 p d)) = _
  refine congrArg (V c main_v70) (funext fun a => Fin.ext ?_)
  refine (Window.rect_emb_val win7_0 t (ix2 p d) a).trans ?_
  match a with
  | ⟨0, _⟩ => show win7_0.index t (0 : Fin 2) * 5000 + p.val = r.val; rw [e0, hr]; omega
  | ⟨1, _⟩ => show win7_0.index t (1 : Fin 2) * 128 + d.val = d.val; rw [e1]; omega

theorem iblk7_1_apply (c : Dev nD) (t : Fin cfg7.N) (p : Fin 5000) (r : Fin 100000) (hr : r.val = 5000 * t.val + p.val) :
    (iblk7 V c 1 t : Vec F S5000x1 .i32) (ix2 p (0 : Fin 1)) = (V c main_v71 : S100000x1.Idx → Elt F .i32) (ix2 r (0 : Fin 1)) := by
  obtain ⟨-, -, e0, e1⟩ := index7_rows t
  show V c main_v71 (((cfg7.win 1).blk t).view.emb (ix2 p (0 : Fin 1))) = _
  refine congrArg (V c main_v71) (funext fun a => Fin.ext ?_)
  refine (Window.rect_emb_val win7_1 t (ix2 p (0 : Fin 1)) a).trans ?_
  match a with
  | ⟨0, _⟩ => show win7_1.index t (0 : Fin 2) * 5000 + p.val = r.val; rw [e0, hr]; omega
  | ⟨1, _⟩ => show win7_1.index t (1 : Fin 2) * 1 + 0 = 0; rw [e1]

-- The weights and biases are read whole: the result block is the perceptron of the full sum at the arrays.
theorem out7_6_eq_arrays (c : Dev nD) :
    out7_6 V c = k7_pay3 (acc7 V c 20) (V c main_arg12) (V c main_arg13) (V c main_arg14) (V c main_arg15) := by
  unfold out7_6
  rw [mlp7_eq,
    show (iblk7 V c 2 t19 : Vec F S128x128 .f32) = V c main_arg12 from read_block0 main_arg12 (funext fun a => by fin_cases a <;> rfl) _,
    show (iblk7 V c 3 t19 : Vec F S128 .f32) = V c main_arg13 from read_block0 main_arg13 (funext fun a => by fin_cases a <;> rfl) _,
    show (iblk7 V c 4 t19 : Vec F S128x10 .f32) = V c main_arg14 from read_block0 main_arg14 (funext fun a => by fin_cases a <;> rfl) _,
    show (iblk7 V c 5 t19 : Vec F S10 .f32) = V c main_arg15 from read_block0 main_arg15 (funext fun a => by fin_cases a <;> rfl) _]

end

end Cert.KernelIdeal.Fr

end
-- ==== Proof.LibGatherScatter.lean ====
import Idealize.ShloMosaic.PureOps.Ideal
import Idealize.ShloMosaic.Lib.ValueIdx

open scoped BigOperators

namespace Cert.Bridge.GS

open Idealize.ShloMosaic Idealize.ShloMosaic.ValueIdx

private theorem getElem_of_eq_singleton {β : Type} {l : List β} {b : β} (hl : l = [b]) {k : Nat} (hk : k < l.length) :
    l[k] = b := by
  subst hl
  have hk0 : k = 0 := by simpa using hk
  subst hk0; rfl

theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

section Scatter
variable {N E W w : Nat}

/-- Update element (e, j) of a row scatter lands in the row its index names, when that is in range, at column j. -/
theorem resultIdx?_rows (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j : Fin W) :
    d.resultIdx? (ix2 e j) idx =
      if h : 0 ≤ (idx (ix2 e 0)).toInt ∧ (idx (ix2 e 0)).toInt < N then
        some (ix2 ⟨(idx (ix2 e 0)).toInt.toNat, by omega⟩ j)
      else none := by
  obtain ⟨uw, iw, sd, ivd, wf⟩ := d
  dsimp only at huw hiw hsd hivd
  subst huw hiw hsd hivd
  set D : ScatterDims ⟨2, ![N, W]⟩ ⟨2, ![E, 1]⟩ ⟨2, ![E, W]⟩ := ⟨[1], [0], [0], 1, wf⟩ with hD
  have hs0 : D.start (ix2 e j) idx 0 = (idx (ix2 e 0)).toInt := by
    unfold ScatterDims.start
    rw [dif_pos (show (0 : Fin 2) ∈ D.scatterDimsToOperandDims from List.mem_singleton.mpr rfl)]
    congr 2
    funext b
    refine Fin.ext ?_
    match b with
    | ⟨0, _⟩ => rfl
    | ⟨1, _⟩ => rfl
  have hs1 : D.start (ix2 e j) idx 1 = 0 := by
    unfold ScatterDims.start
    rw [dif_neg (show (1 : Fin 2) ∉ D.scatterDimsToOperandDims from (by decide : (1 : Fin 2) ∉ [0]))]
  have hw0 : D.window (ix2 e j) 0 = 0 := by
    unfold ScatterDims.window
    rw [dif_neg (show (0 : Fin 2) ∉ D.sKept from by simp [hD, ScatterDims.sKept, Shape.kept])]
  have hw1 : D.window (ix2 e j) 1 = j.val := by
    unfold ScatterDims.window
    rw [dif_pos (show (1 : Fin 2) ∈ D.sKept from by simp [hD, ScatterDims.sKept, Shape.kept])]
    rw [getElem_of_eq_singleton (b := (1 : Fin 2)) rfl]
  unfold ScatterDims.resultIdx?
  by_cases h : 0 ≤ (idx (ix2 e 0)).toInt ∧ (idx (ix2 e 0)).toInt < N
  · have hall : ∀ a, 0 ≤ D.start (ix2 e j) idx a + D.window (ix2 e j) a ∧
        D.start (ix2 e j) idx a + D.window (ix2 e j) a < (⟨2, ![N, W]⟩ : Shape).size a := by
      intro a
      match a with
      | ⟨0, _⟩ =>
        show 0 ≤ D.start (ix2 e j) idx 0 + D.window (ix2 e j) 0 ∧ D.start (ix2 e j) idx 0 + D.window (ix2 e j) 0 < (N : Int)
        rw [hs0, hw0]; omega
      | ⟨1, _⟩ =>
        show 0 ≤ D.start (ix2 e j) idx 1 + D.window (ix2 e j) 1 ∧ D.start (ix2 e j) idx 1 + D.window (ix2 e j) 1 < (W : Int)
        rw [hs1, hw1]; have := j.isLt; omega
    rw [dif_pos hall, dif_pos h]
    congr 1
    funext a
    refine Fin.ext ?_
    match a with
    | ⟨0, _⟩ =>
      show (D.start (ix2 e j) idx 0 + D.window (ix2 e j) 0).toNat = (idx (ix2 e 0)).toInt.toNat
      rw [hs0, hw0]; simp
    | ⟨1, _⟩ =>
      show (D.start (ix2 e j) idx 1 + D.window (ix2 e j) 1).toNat = j.val
      rw [hs1, hw1]; simp
  · rw [dif_neg h, dif_neg]
    intro hall
    have h0 : 0 ≤ D.start (ix2 e j) idx 0 + D.window (ix2 e j) 0 ∧ D.start (ix2 e j) idx 0 + D.window (ix2 e j) 0 < (N : Int) :=
      hall 0
    rw [hs0, hw0] at h0
    exact h (by omega)

theorem resultIdx?_eq_some_iff (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j' : Fin W) (n : Fin N) (j : Fin W) :
    d.resultIdx? (ix2 e j') idx = some (ix2 n j) ↔ (idx (ix2 e 0)).toInt = (n.val : Int) ∧ j' = j := by
  rw [resultIdx?_rows d huw hiw hsd hivd idx e j']
  have hn := n.isLt
  split
  · next h =>
    rw [Option.some.injEq, ix2_inj]
    constructor
    · rintro ⟨h1, h2⟩
      refine ⟨?_, h2⟩
      have := congrArg Fin.val h1
      simp only at this
      omega
    · rintro ⟨h1, h2⟩
      refine ⟨Fin.ext ?_, h2⟩
      show (idx (ix2 e 0)).toInt.toNat = n.val
      omega
  · next h =>
    constructor
    · intro h'; exact absurd h' (by simp)
    · rintro ⟨h1, _⟩; exact absurd (show 0 ≤ (idx (ix2 e 0)).toInt ∧ (idx (ix2 e 0)).toInt < N by omega) h

/-- Entry (n, j) after a row scatter-add: the table's entry plus the updates of the rows sent to n. -/
theorem hostScatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : (⟨2, ![N, W]⟩ : Shape).Idx → EReal) (idx : IVec ⟨2, ![E, 1]⟩ w) (upd : (⟨2, ![E, W]⟩ : Shape).Idx → EReal)
    (n : Fin N) (j : Fin W) :
    Ideal.hostScatterAdd d x idx upd (ix2 n j) =
      x (ix2 n j) + ∑ e ∈ Finset.univ.filter (fun e : Fin E => (idx (ix2 e 0)).toInt = (n.val : Int)), upd (ix2 e j) := by
  unfold Ideal.hostScatterAdd
  congr 1
  rw [Finset.sum_filter, sum_idx2, Finset.sum_filter]
  refine Finset.sum_congr rfl fun e _ => ?_
  simp only [resultIdx?_eq_some_iff d huw hiw hsd hivd idx e _ n j]
  by_cases h : (idx (ix2 e 0)).toInt = (n.val : Int)
  · simp only [h, true_and, if_true]
    rw [Finset.sum_ite_eq' Finset.univ j (fun j' => upd (ix2 e j'))]
    simp
  · simp only [h, false_and, if_false]
    exact Finset.sum_const_zero

end Scatter

section HostForm
variable {N E W w : Nat} {φ : FTy}

theorem scatterAdd_eq {s si u : Shape} (d : ScatterDims s si u) (x : FVec Ideal s φ) (idx : IVec si w)
    (upd : FVec Ideal u φ) : Host.scatterAdd d x idx upd = Ideal.hostScatterAdd d x idx upd := rfl

theorem scatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : FVec Ideal ⟨2, ![N, W]⟩ φ) (idx : IVec ⟨2, ![E, 1]⟩ w) (upd : FVec Ideal ⟨2, ![E, W]⟩ φ) (n : Fin N) (j : Fin W) :
    Host.scatterAdd d x idx upd (ix2 n j) =
      x (ix2 n j) + ∑ e ∈ Finset.univ.filter (fun e : Fin E => (idx (ix2 e 0)).toInt = (n.val : Int)), upd (ix2 e j) :=
  hostScatterAdd_apply d huw hiw hsd hivd x idx upd n j

end HostForm

end Cert.Bridge.GS
-- ==== Proof.ValPoolMath.lean ====
import proofs.«400973_j32538672234673_1_alg».proof.Proof.Gen.KernelIdeal.Skeleton
import proofs.«400973_j32538672234673_1_alg».proof.Proof.RefOps
import proofs.«400973_j32538672234673_1_alg».proof.Proof.LibGatherScatter
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Fr

open Cert.KernelIdeal Cert.KernelIdeal.Gen
open Idealize.ShloMosaic Idealize.ShloMosaic.TcCoe
open Idealize.ShloMosaic.ValueIdx

theorem pay1_apply (g : Fin 512) (d : Fin 128) : k7_pay1 (F := Ideal) (ix2 g d) = 0 := by
  unfold k7_pay1
  rw [shapeCast_self]
  show Ideal.ofBits .f32 0x00000000#32 = 0
  exact Ideal.ofBits_zero_f32

theorem toInt_ofNat_small (g : Fin 512) : (BitVec.ofNat 32 g.val).toInt = (g.val : Int) := by
  have hg := g.isLt
  have h1 : (BitVec.ofNat 32 g.val).toNat = g.val := by
    rw [BitVec.toNat_ofNat]; exact Nat.mod_eq_of_lt (by omega)
  rw [BitVec.toInt_eq_toNat_of_lt (by rw [h1]; omega), h1]

theorem word_eq_ofNat_iff (w : BitVec 32) (g : Fin 512) : BitVec.ofNat 32 g.val = w ↔ w.toInt = (g.val : Int) := by
  constructor
  · intro h; rw [← h]; exact toInt_ofNat_small g
  · intro h; exact BitVec.eq_of_toInt_eq (by rw [h]; exact toInt_ofNat_small g)

theorem onehot_word (w : BitVec 32) (g : Fin 512) :
    ((((IntOp.cmpi .eq (BitVec.ofNat 32 g.val) w).setWidth 32).toInt : ℝ) : EReal) = if w.toInt = (g.val : Int) then 1 else 0 := by
  by_cases h : w.toInt = (g.val : Int)
  · rw [if_pos h, (word_eq_ofNat_iff w g).mpr h]
    have : (IntOp.cmpi .eq w w).setWidth 32 = 1#32 := by
      unfold IntOp.cmpi; simp
    rw [this]; norm_num
  · rw [if_neg h]
    have hne : ¬ BitVec.ofNat 32 g.val = w := fun e => h ((word_eq_ofNat_iff w g).mp e)
    have hb : (BitVec.ofNat 32 g.val == w) = false := beq_eq_false_iff_ne.mpr hne
    have : (IntOp.cmpi .eq (BitVec.ofNat 32 g.val) w).setWidth 32 = 0#32 := by
      unfold IntOp.cmpi
      show BitVec.setWidth 32 (BitVec.ofBool (BitVec.ofNat 32 g.val == w)) = 0#32
      rw [hb]; rfl
    rw [this]; norm_num

theorem matmul_pool_apply {φa φb : FTy} (x : FVec Ideal S5000x512 φa) (w : FVec Ideal S5000x128 φb) (g : Fin 512) (d : Fin 128) :
    FloatOps.matmul dot_S5000x512_S5000x128_S512x128_0_0_1_1_n_n none x w (constant S512x128 .f32 0x00000000#32) (ix2 g d)
      = ∑ p : Fin 5000, x (ix2 p g) * w (ix2 p d) := by
  rw [Ideal.matmul_constant_zero_apply, ← Equiv.sum_comp (ValueIdx.contrEquiv1 dot_S5000x512_S5000x128_S512x128_0_0_1_1_n_n 5000 rfl rfl).symm]
  refine Finset.sum_congr rfl fun k _ => ?_
  have hk := ValueIdx.contrEquiv1_symm_val dot_S5000x512_S5000x128_S512x128_0_0_1_1_n_n 5000 rfl rfl k
  have el : dot_S5000x512_S5000x128_S512x128_0_0_1_1_n_n.lhsIdx (ix2 g d) ((ValueIdx.contrEquiv1 dot_S5000x512_S5000x128_S512x128_0_0_1_1_n_n 5000 rfl rfl).symm k) = ix2 k g := funext fun a => Fin.ext (by
    match a with
    | ⟨0, _⟩ => exact (DotDims.lhsIdx_val_of_single _ rfl _ _).trans hk
    | ⟨1, _⟩ => rfl)
  have er : dot_S5000x512_S5000x128_S512x128_0_0_1_1_n_n.rhsIdx (ix2 g d) ((ValueIdx.contrEquiv1 dot_S5000x512_S5000x128_S512x128_0_0_1_1_n_n 5000 rfl rfl).symm k) = ix2 k d := funext fun a => Fin.ext (by
    match a with
    | ⟨0, _⟩ => exact (DotDims.rhsIdx_val_of_single _ rfl _ _).trans hk
    | ⟨1, _⟩ => rfl)
  rw [el, er]

theorem selector_apply (ids : IVec S5000x1 32) (hi : S5000x512.Iotas .tc 32 [1]) (hb : S5000x1.Broadcasts S5000x512) (h1 : 1 < 32)
    (p : Fin 5000) (g : Fin 512) :
    (sitofp .f32 (extui 32 (cmpi .eq (iota .tc S5000x512 32 [1] hi) (broadcastTo S5000x512 ids hb)) h1) : FVec Ideal S5000x512 .f32) (ix2 p g)
      = if (ids (ix2 p 0)).toInt = (g.val : Int) then 1 else 0 := by
  have hio : iota .tc S5000x512 32 [1] hi (ix2 p g) = BitVec.ofNat 32 g.val := iota_single_apply .tc S5000x512 32 1 hi (ix2 p g)
  have hbc : broadcastTo S5000x512 ids hb (ix2 p g) = ids (ix2 p 0) := broadcastTo_apply ids hb (ix2 p g) (ix2 p 0) (fun a => match a with
      | ⟨0, _⟩ => by show p.val = if (5000 : Nat) = 1 then 0 else p.val; rw [if_neg (by decide)]
      | ⟨1, _⟩ => by show (0 : Nat) = if (1 : Nat) = 1 then 0 else _; rw [if_pos rfl])
  show ((((IntOp.cmpi .eq (iota .tc S5000x512 32 [1] hi (ix2 p g)) (broadcastTo S5000x512 ids hb (ix2 p g))).setWidth 32).toInt : ℝ) : EReal) = _
  rw [hio, hbc]
  exact onehot_word _ g

theorem pay2_apply (ids : Vec Ideal S5000x1 .i32) (tile : Vec Ideal S5000x128 .f32) (acc : Vec Ideal S512x128 .f32) (g : Fin 512) (d : Fin 128) :
    k7_pay2 (F := Ideal) ids tile acc (ix2 g d)
      = acc (ix2 g d) + ∑ p : Fin 5000, (if (ids (ix2 p 0)).toInt = (g.val : Int) then tile (ix2 p d) else 0) := by
  unfold k7_pay2
  simp only [shapeCast_self, matmul]
  rw [addf_apply, matmul_pool_apply]
  congr 1
  refine Finset.sum_congr rfl fun p _ => ?_
  rw [truncf_apply, truncf_apply, selector_apply]
  split
  · exact one_mul _
  · exact zero_mul _

end Cert.KernelIdeal.Fr

end
-- ==== Proof.ValPoolFold.lean ====
import proofs.«400973_j32538672234673_1_alg».proof.Proof.Gen.KernelIdeal.Skeleton
import proofs.«400973_j32538672234673_1_alg».proof.Proof.RefOps
import proofs.«400973_j32538672234673_1_alg».proof.Proof.LibGatherScatter
import proofs.«400973_j32538672234673_1_alg».proof.Proof.ValPoolMath
import Idealize.ShloMosaic.Lib.Pipeline.Value
import Idealize.ShloMosaic.Lib.ValueIdx
import Idealize.ShloMosaic.PureOps.Ideal.Laws

noncomputable section

namespace Cert.KernelIdeal.Fr

open Cert.KernelIdeal Cert.KernelIdeal.Gen
open Idealize.ShloMosaic Idealize.ShloMosaic.TcCoe
open Idealize.ShloMosaic.ValueIdx
open scoped BigOperators

def poolTerm (H : Cert.RefOps.Arr Ideal S100000x128 .f32) (B : Cert.RefOps.Arr Ideal S100000x1 .i32) (g : Fin 512) (d : Fin 128) (k : ℕ) : EReal :=
  if h : k < 100000 then (if (B (ix2 ⟨k, h⟩ 0)).toInt = (g.val : Int) then H (ix2 ⟨k, h⟩ d) else 0) else 0

theorem poolSum_eq_range (H : Cert.RefOps.Arr Ideal S100000x128 .f32) (B : Cert.RefOps.Arr Ideal S100000x1 .i32) (g : Fin 512) (d : Fin 128) :
    Cert.RefOps.poolSum (F := Ideal) H B (ix2 g d) = ∑ k ∈ Finset.range 100000, poolTerm H B g d k := by
  unfold Cert.RefOps.poolSum
  rw [Cert.Bridge.GS.scatterAdd_apply Cert.ReferenceIdeal.scatter_S512x128_S100000x1_S100000x128_1_0_0_1 rfl rfl rfl rfl _ B H g d]
  show Ideal.ofBits .f32 0x00000000#32 + _ = _
  rw [Ideal.ofBits_zero_f32, zero_add, Finset.sum_filter, ← Fin.sum_univ_eq_sum_range (poolTerm H B g d) 100000]
  refine Finset.sum_congr rfl fun e _ => ?_
  unfold poolTerm
  rw [dif_pos e.isLt]

theorem pool_step (H : Cert.RefOps.Arr Ideal S100000x128 .f32) (B : Cert.RefOps.Arr Ideal S100000x1 .i32)
    (ids : Vec Ideal S5000x1 .i32) (tile : Vec Ideal S5000x128 .f32) (acc : Vec Ideal S512x128 .f32) (n : ℕ) (hn : n < 20)
    (hids : ∀ p : Fin 5000, ids (ix2 p 0) = B (ix2 ⟨5000 * n + p.val, by omega⟩ 0))
    (htile : ∀ (p : Fin 5000) (d : Fin 128), tile (ix2 p d) = H (ix2 ⟨5000 * n + p.val, by omega⟩ d))
    (g : Fin 512) (d : Fin 128)
    (hacc : acc (ix2 g d) = ∑ k ∈ Finset.range (5000 * n), poolTerm H B g d k) :
    k7_pay2 (F := Ideal) ids tile acc (ix2 g d) = ∑ k ∈ Finset.range (5000 * (n + 1)), poolTerm H B g d k := by
  rw [pay2_apply, hacc, show 5000 * (n + 1) = 5000 * n + 5000 by ring, Finset.sum_range_add,
    ← Fin.sum_univ_eq_sum_range (fun k => poolTerm H B g d (5000 * n + k)) 5000]
  congr 1
  refine Finset.sum_congr rfl fun p _ => ?_
  unfold poolTerm
  rw [dif_pos (show 5000 * n + p.val < 100000 by omega), hids p, htile p d]

theorem acc_fold (H : Cert.RefOps.Arr Ideal S100000x128 .f32) (B : Cert.RefOps.Arr Ideal S100000x1 .i32)
    (ids : ℕ → Vec Ideal S5000x1 .i32) (tile : ℕ → Vec Ideal S5000x128 .f32) (A : ℕ → Vec Ideal S512x128 .f32)
    (hids : ∀ n (hn : n < 20) (p : Fin 5000), ids n (ix2 p 0) = B (ix2 ⟨5000 * n + p.val, by omega⟩ 0))
    (htile : ∀ n (hn : n < 20) (p : Fin 5000) (d : Fin 128), tile n (ix2 p d) = H (ix2 ⟨5000 * n + p.val, by omega⟩ d))
    (hA0 : A 1 = k7_pay2 (F := Ideal) (ids 0) (tile 0) (k7_pay1 (F := Ideal)))
    (hA : ∀ n, 0 < n → n < 20 → A (n + 1) = k7_pay2 (F := Ideal) (ids n) (tile n) (A n)) :
    A 20 = Cert.RefOps.poolSum (F := Ideal) H B := by
  have inv : ∀ n, 1 ≤ n → n ≤ 20 → ∀ (g : Fin 512) (d : Fin 128),
      A n (ix2 g d) = ∑ k ∈ Finset.range (5000 * n), poolTerm H B g d k := by
    intro n h1
    induction n, h1 using Nat.le_induction with
    | base =>
      intro _ g d
      rw [hA0]
      exact pool_step H B (ids 0) (tile 0) (k7_pay1 (F := Ideal)) 0 (by omega) (hids 0 (by omega)) (htile 0 (by omega)) g d
        (by rw [pay1_apply]; simp)
    | succ n h1 ih =>
      intro hn g d
      rw [hA n (by omega) (by omega)]
      exact pool_step H B (ids n) (tile n) (A n) n (by omega) (hids n (by omega)) (htile n (by omega)) g d (ih (by omega) g d)
  funext j
  obtain ⟨g, d, rfl⟩ : ∃ (g : Fin 512) (d : Fin 128), j = ix2 g d := ⟨j 0, j 1, eq_ix2 j⟩
  rw [inv 20 (by omega) (by omega) g d, poolSum_eq_range]

end Cert.KernelIdeal.Fr

end
-- ==== Proof.ValPoolMlp.lean ====
import proofs.«400973_j32538672234673_1_alg».proof.Proof.Gen.KernelIdeal.Skeleton
import proofs.«400973_j32538672234673_1_alg».proof.Proof.RefOps
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Fr

open Cert.KernelIdeal Cert.KernelIdeal.Gen
open Idealize.ShloMosaic Idealize.ShloMosaic.TcCoe
open Idealize.ShloMosaic.ValueIdx

-- A rows-by-columns product at (g, j): the sum over the contraction index is the sum over k of x[g, k] · w[k, j].
theorem sum_plain {a b m : ℕ} {φa φb : FTy} (x : FVec Ideal ⟨2, ![a, b]⟩ φa) (w : FVec Ideal ⟨2, ![b, m]⟩ φb) (g : Fin a) (j : Fin m) :
    ∑ q : (DotDims.plain a b m).contr.Idx, x ((DotDims.plain a b m).lhsIdx (ix2 g j) q) * w ((DotDims.plain a b m).rhsIdx (ix2 g j) q)
      = ∑ k : Fin b, x (ix2 g k) * w (ix2 k j) := by
  rw [← Equiv.sum_comp (ValueIdx.contrEquiv1 (DotDims.plain a b m) b rfl rfl).symm]
  refine Finset.sum_congr rfl fun k _ => ?_
  have hk := ValueIdx.contrEquiv1_symm_val (DotDims.plain a b m) b rfl rfl k
  rw [show (DotDims.plain a b m).lhsIdx (ix2 g j) ((ValueIdx.contrEquiv1 (DotDims.plain a b m) b rfl rfl).symm k) = ix2 g k from
      funext fun c => Fin.ext (by
        match c with
        | ⟨0, _⟩ => rfl
        | ⟨1, _⟩ => exact ((DotDims.plain a b m).lhsIdx_val_of_single rfl _ _).trans hk),
    show (DotDims.plain a b m).rhsIdx (ix2 g j) ((ValueIdx.contrEquiv1 (DotDims.plain a b m) b rfl rfl).symm k) = ix2 k j from
      funext fun c => Fin.ext (by
        match c with
        | ⟨0, _⟩ => exact ((DotDims.plain a b m).rhsIdx_val_of_single rfl _ _).trans hk
        | ⟨1, _⟩ => rfl)]

-- The kernel's product into a zero accumulator, and the reference's product, at (g, j).
theorem matmul_plain_apply {a b m : ℕ} {φa φb : FTy} (x : FVec Ideal ⟨2, ![a, b]⟩ φa) (w : FVec Ideal ⟨2, ![b, m]⟩ φb) (g : Fin a) (j : Fin m) :
    matmul (DotDims.plain a b m) none x w (constant ⟨2, ![a, m]⟩ .f32 0x00000000#32) (ix2 g j) = ∑ k : Fin b, x (ix2 g k) * w (ix2 k j) :=
  (Ideal.matmul_constant_zero_apply _ _ x w _).trans (sum_plain x w g j)

theorem dotRef_plain_apply {a b m : ℕ} (G : FVec Ideal ⟨2, ![a, b]⟩ .f32) (W : FVec Ideal ⟨2, ![b, m]⟩ .f32) (g : Fin a) (j : Fin m) :
    Host.dotGeneral (F := Ideal) (DotDims.plain a b m) none G W (ix2 g j) = ∑ k : Fin b, G (ix2 g k) * W (ix2 k j) := by
  simp only [Host.dotGeneral]
  rw [Ideal.dotGeneral_apply]
  exact sum_plain G W g j

-- A bias row laid under every row, read at (g, j), is the row's entry j: as the kernel spells it,
theorem bias_apply {α : Type} {n m : ℕ} (b : (⟨1, ![m]⟩ : Shape).Idx → α) (hc : (⟨1, ![m]⟩ : Shape).ShapeCasts ⟨2, ![1, m]⟩)
    (hb : (⟨2, ![1, m]⟩ : Shape).Broadcasts ⟨2, ![n, m]⟩) (g : Fin n) (j : Fin m) :
    broadcastTo ⟨2, ![n, m]⟩ (shapeCast ⟨2, ![1, m]⟩ b hc) hb (ix2 g j) = b (ix1 j) := by
  rw [broadcastTo_1b_ab_apply _ hb g j, shapeCast_a_1a_apply b hc (0 : Fin 1) j]

-- and as the reference does.
theorem biasRef_apply {α : Type} {n m : ℕ} (b : (⟨1, ![m]⟩ : Shape).Idx → α) (h1 : (⟨1, ![m]⟩ : Shape).BroadcastsInDim ⟨2, ![1, m]⟩ ![1])
    (h2 : (⟨2, ![1, m]⟩ : Shape).BroadcastsInDim ⟨2, ![n, m]⟩ ![0, 1]) (g : Fin n) (j : Fin m) :
    broadcastInDim ⟨2, ![n, m]⟩ ![0, 1] h2 (broadcastInDim ⟨2, ![1, m]⟩ ![1] h1 b) (ix2 g j) = b (ix1 j) := by
  have hj : j.val = if m = 1 then 0 else j.val := by have := j.isLt; split <;> omega
  rw [broadcastInDim_apply _ h2 _ (ix2 g j) (ix2 (0 : Fin 1) j) (fun a => by match a with | ⟨0, _⟩ => rfl | ⟨1, _⟩ => exact hj),
    broadcastInDim_apply _ h1 b (ix2 (0 : Fin 1) j) (ix1 j) (fun a => by match a with | ⟨0, _⟩ => exact hj)]

theorem pay3_eq (acc : Vec Ideal S512x128 .f32) (w1 : Vec Ideal S128x128 .f32) (b1 : Vec Ideal S128 .f32) (w2 : Vec Ideal S128x10 .f32) (b2 : Vec Ideal S10 .f32) :
    k7_pay3 (F := Ideal) acc w1 b1 w2 b2 = Cert.RefOps.mlpRef (F := Ideal) acc w1 b1 w2 b2 := by
  funext i
  obtain ⟨g, j, rfl⟩ : ∃ (g : Fin 512) (j : Fin 10), i = ix2 g j := ⟨i 0, i 1, eq_ix2 i⟩
  unfold k7_pay3 Cert.RefOps.mlpRef
  rw [show dot_S512x128_S128x128_S512x128_1_0_0_1_n_n = DotDims.plain 512 128 128 from rfl,
    show dot_S512x128_S128x10_S512x10_1_0_0_1_n_n = DotDims.plain 512 128 10 from rfl,
    show Cert.ReferenceIdeal.dot_S512x128_S128x128_S512x128_1_0_0_1_n_n = DotDims.plain 512 128 128 from rfl,
    show Cert.ReferenceIdeal.dot_S512x128_S128x10_S512x10_1_0_0_1_n_n = DotDims.plain 512 128 10 from rfl]
  simp only [addf_apply]
  rw [matmul_plain_apply, dotRef_plain_apply, bias_apply, biasRef_apply]
  refine congrArg (· + b2 (ix1 j)) (Finset.sum_congr rfl fun k _ => ?_)
  simp only [truncf_apply]
  refine congrArg (· * w2 (ix2 k j)) ?_
  simp only [maximumf_apply, addf_apply, broadcast_apply]
  rw [matmul_plain_apply, dotRef_plain_apply, bias_apply, biasRef_apply,
    broadcastInDim_apply _ Cert.ReferenceIdeal.Gen.bcast_S_S512x128 _ (ix2 g k) ix0 (fun a => a.elim0)]
  simp only [truncf_apply]
  rfl

end Cert.KernelIdeal.Fr

end
-- ==== Proof.ValPoolNet.lean ====
import proofs.«400973_j32538672234673_1_alg».proof.Proof.FrPool7
import proofs.«400973_j32538672234673_1_alg».proof.Proof.ValPool7
import proofs.«400973_j32538672234673_1_alg».proof.Proof.ValPoolFold
import proofs.«400973_j32538672234673_1_alg».proof.Proof.ValPoolMlp

noncomputable section

namespace Cert.KernelIdeal.Fr

open Cert.KernelIdeal Cert.KernelIdeal.Gen
open Idealize.ShloMosaic Idealize.ShloMosaic.TcCoe Idealize.ShloMosaic.ValueIdx Idealize.SL.Sem

section
variable (V : (c : Dev nD) → (b : Ref sig .tc) → Buf (Elt Ideal) ((c : Thread nD τ).loc b))

theorem acc7_full (c : Dev nD) :
    acc7 (F := Ideal) V c 20 = Cert.RefOps.poolSum (F := Ideal) (V c main_v70) (V c main_v71) := by
  have hN : cfg7.N = 20 := N_7
  refine acc_fold (V c main_v70) (V c main_v71)
    (fun n => if h : n < cfg7.N then (iblk7 V c 1 ⟨n, h⟩ : Vec Ideal S5000x1 .i32) else fun _ => 0)
    (fun n => if h : n < cfg7.N then (iblk7 V c 0 ⟨n, h⟩ : Vec Ideal S5000x128 .f32) else fun _ => 0)
    (acc7 V c) ?_ ?_ ?_ ?_
  · intro n hn p
    have h : n < cfg7.N := by omega
    simp only [dif_pos h]
    exact iblk7_1_apply V c ⟨n, h⟩ p _ rfl
  · intro n hn p d
    have h : n < cfg7.N := by omega
    simp only [dif_pos h]
    exact iblk7_0_apply V c ⟨n, h⟩ p d _ rfl
  · have h : 0 < cfg7.N := by omega
    simp only [dif_pos h]
    have e := acc7_succ_eq V c ⟨0, h⟩
    rw [acc7_zero_eq] at e
    exact e
  · intro n h0 hn
    have h : n < cfg7.N := by omega
    simp only [dif_pos h]
    exact acc7_succ_eq V c ⟨n, h⟩

theorem arrAt7_net (c : Dev nD) : (dat7 (F := Ideal) V c).arrAt 6 cfg7.N
    = Cert.RefOps.poolRef (F := Ideal) (V c main_v70) (V c main_v71) (V c main_arg12) (V c main_arg13) (V c main_arg14) (V c main_arg15) := by
  refine (arrAt7_6 V c).trans ((out7_6_eq_arrays V c).trans ((pay3_eq _ _ _ _ _).trans ?_))
  rw [acc7_full]
  rfl

end

end Cert.KernelIdeal.Fr

end
-- ==== Proof.HostK.lean ====
import proofs.«400973_j32538672234673_1_alg».proof.Proof.Gen.KernelIdeal.Launch
import proofs.«400973_j32538672234673_1_alg».proof.Proof.Gen.KernelIdeal.Skeleton
import proofs.«400973_j32538672234673_1_alg».proof.Proof.Gen.KernelIdeal.Points
import proofs.«400973_j32538672234673_1_alg».proof.Proof.RefOps
import Idealize.ShloMosaic.Lib.Pipeline.FrameBody
import Idealize.ShloMosaic.Lib.Pipeline.RegionsLoop
import Idealize.ShloMosaic.Lib.Pipeline.FrameSuffix
import Idealize.ShloMosaic.Lib.StableHlo.Run
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A vector reshaped to one column is the vector broadcast along a new trailing axis: both read it at the row. -/
theorem shapeCast_col_eq_broadcastInDim {α : Type} {a : ℕ} (x : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ (![0] : Fin 1 → Fin 2)) :
    shapeCast ⟨2, ![a, 1]⟩ x h = broadcastInDim ⟨2, ![a, 1]⟩ ![0] hb x := by
  funext j
  have hj0 : (j 0).val < a := (j 0).isLt
  have hj1 : (j 1).val = 0 := by
    have h1 : (j 1).val < 1 := (j 1).isLt
    omega

  rw [shapeCast_apply x h j (ValueIdx.ix1 (⟨(j 0).val, hj0⟩ : Fin a)) (by
        rw [Shape.rowMajor_val_one, Shape.rowMajor_val_two]
        show (j 0).val = (j 0).val * 1 + (j 1).val
        rw [hj1, Nat.mul_one, Nat.add_zero]),
      broadcastInDim_apply ![0] hb x j (ValueIdx.ix1 (⟨(j 0).val, hj0⟩ : Fin a)) (by
        intro a'
        have ha' : a' = 0 := Subsingleton.elim _ _
        subst ha'
        show (j 0).val = if a = 1 then 0 else (j 0).val
        by_cases h1 : a = 1
        · rw [if_pos h1]; omega
        · rw [if_neg h1])]

theorem host0_v1 (W : Valuation τ sig (Elt Ideal)) :
    StableHlo.after hostOps0 W (Proc.devRef .tc main_v1)
      = broadcastInDim S128 ![] bcast_S_S128 (constant (F := Ideal) S_ .f32 0x00000000#32) := by
  show StableHlo.after hostOps0 W (Proc.devRef .tc main_v1) = _
  after_results

set_option maxHeartbeats 4000000 in

theorem host0_v22 (W : Valuation τ sig (Elt Ideal)) :
    StableHlo.after hostOps0 W (Proc.devRef .tc main_v22)
      = Cert.RefOps.normRef (F := Ideal) (W (Proc.devRef .tc main_arg1)) (W (Proc.devRef .tc main_arg2)) := by
  show StableHlo.after hostOps0 W (Proc.devRef .tc main_v22) = _
  after_results
  unfold Cert.RefOps.normRef Cert.RefOps.dinvAt Cert.RefOps.dinvRef Cert.RefOps.wrapIdx
  rfl

set_option maxHeartbeats 4000000 in

theorem host0_v24 (W : Valuation τ sig (Elt Ideal)) :
    StableHlo.after hostOps0 W (Proc.devRef .tc main_v24)
      = Cert.RefOps.dinv2Ref (F := Ideal) (W (Proc.devRef .tc main_arg2)) := by
  show StableHlo.after hostOps0 W (Proc.devRef .tc main_v24) = _
  after_results
  unfold Cert.RefOps.dinv2Ref Cert.RefOps.dinvRef
  exact shapeCast_col_eq_broadcastInDim _ _ _

set_option maxHeartbeats 4000000 in

/-- A layer's host stretch is the reference's gather, weighting and scatter-add of the same arrays. -/
theorem host2_v39 (W : Valuation τ sig (Elt Ideal)) :
    StableHlo.after hostOps2 W (Proc.devRef .tc main_v39)
      = Cert.RefOps.aggRef (F := Ideal) (W (Proc.devRef .tc main_v26)) (W (Proc.devRef .tc main_arg1))
          (W (Proc.devRef .tc main_arg2)) (W (Proc.devRef .tc main_v22)) := by
  show StableHlo.after hostOps2 W (Proc.devRef .tc main_v39) = _
  after_results
  unfold Cert.RefOps.aggRef Cert.RefOps.wrapIdx Cert.RefOps.zeroRows
  rfl

set_option maxHeartbeats 4000000 in

theorem host4_v54 (W : Valuation τ sig (Elt Ideal)) :
    StableHlo.after hostOps4 W (Proc.devRef .tc main_v54)
      = Cert.RefOps.aggRef (F := Ideal) (W (Proc.devRef .tc main_v41)) (W (Proc.devRef .tc main_arg1))
          (W (Proc.devRef .tc main_arg2)) (W (Proc.devRef .tc main_v22)) := by
  show StableHlo.after hostOps4 W (Proc.devRef .tc main_v54) = _
  after_results
  unfold Cert.RefOps.aggRef Cert.RefOps.wrapIdx Cert.RefOps.zeroRows
  rfl

set_option maxHeartbeats 4000000 in

theorem host6_v69 (W : Valuation τ sig (Elt Ideal)) :
    StableHlo.after hostOps6 W (Proc.devRef .tc main_v69)
      = Cert.RefOps.aggRef (F := Ideal) (W (Proc.devRef .tc main_v56)) (W (Proc.devRef .tc main_arg1))
          (W (Proc.devRef .tc main_arg2)) (W (Proc.devRef .tc main_v22)) := by
  show StableHlo.after hostOps6 W (Proc.devRef .tc main_v69) = _
  after_results
  unfold Cert.RefOps.aggRef Cert.RefOps.wrapIdx Cert.RefOps.zeroRows
  rfl

theorem host7_v71 (W : Valuation τ sig (Elt Ideal)) :
    StableHlo.after hostOps7 W (Proc.devRef .tc main_v71)
      = Cert.RefOps.batchCol (F := Ideal) (W (Proc.devRef .tc main_arg3)) := by
  show StableHlo.after hostOps7 W (Proc.devRef .tc main_v71) = _
  after_results
  unfold Cert.RefOps.batchCol
  exact shapeCast_col_eq_broadcastInDim _ _ _

end Cert.KernelIdeal.Fr

end
-- ==== Proof.RefNet.lean ====
import proofs.«400973_j32538672234673_1_alg».proof.Proof.RefOps

noncomputable section

namespace Cert.RefOps

open Cert.ReferenceIdeal Cert.ReferenceIdeal.Gen Idealize.ShloMosaic Idealize.ShloMosaic.TcCoe

variable {F : FTy → Type} [FloatOps F]

/-- The reference network as one function of its sixteen arguments. -/
def netRef (x : Arr F S100000x128 .f32) (src dst : Arr F S1600000 .i32) (batch : Arr F S100000 .i32)
    (Wenc : Arr F S128x128 .f32) (benc : Arr F S128 .f32) (W1 : Arr F S128x128 .f32) (b1 : Arr F S128 .f32)
    (W2 : Arr F S128x128 .f32) (b2 : Arr F S128 .f32) (W3 : Arr F S128x128 .f32) (b3 : Arr F S128 .f32)
    (Wr1 : Arr F S128x128 .f32) (br1 : Arr F S128 .f32) (Wr2 : Arr F S128x10 .f32) (br2 : Arr F S10 .f32) :
    Arr F S512x10 .f32 :=
  poolRef (layerRef (layerRef (layerRef (encRef x Wenc benc) src dst W1 b1) src dst W2 b2) src dst W3 b3)
    (batchCol batch) Wr1 br1 Wr2 br2

set_option maxRecDepth 16384 in
set_option maxHeartbeats 4000000 in

/-- The reference run's result term is that network of the launch arrays. -/
theorem res_eq (m : (ℓ : Loc nD τ sig) → Buf (Elt F) ℓ) (c : Dev nD) :
    Cert.ReferenceIdeal.Value.res_main_v150 m c =
      netRef (F := F) (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) (m ((c.tc : Thread nD τ).loc main_arg11))
        (m ((c.tc : Thread nD τ).loc main_arg12)) (m ((c.tc : Thread nD τ).loc main_arg13))
        (m ((c.tc : Thread nD τ).loc main_arg14)) (m ((c.tc : Thread nD τ).loc main_arg15)) := by
  unfold Cert.ReferenceIdeal.Value.res_main_v150 netRef poolRef mlpRef poolSum layerRef fusRef aggRef linRef encRef
    dinv2Ref normRef dinvAt dinvRef wrapIdx biasRows zeroRows batchCol
  rfl

end Cert.RefOps

end
-- ==== Proof.KVal.lean ====
import proofs.«400973_j32538672234673_1_alg».proof.Proof.Chain
import proofs.«400973_j32538672234673_1_alg».proof.Proof.ValLin0
import proofs.«400973_j32538672234673_1_alg».proof.Proof.ValLin1
import proofs.«400973_j32538672234673_1_alg».proof.Proof.ValLin3
import proofs.«400973_j32538672234673_1_alg».proof.Proof.ValLin5
import proofs.«400973_j32538672234673_1_alg».proof.Proof.ValFus2
import proofs.«400973_j32538672234673_1_alg».proof.Proof.ValFus4
import proofs.«400973_j32538672234673_1_alg».proof.Proof.ValFus6
import proofs.«400973_j32538672234673_1_alg».proof.Proof.ValPoolNet
import proofs.«400973_j32538672234673_1_alg».proof.Proof.HostK
import proofs.«400973_j32538672234673_1_alg».proof.Proof.RefNet

noncomputable section

namespace Cert.KernelIdeal.Fr

open Cert.KernelIdeal Cert.KernelIdeal.Gen Cert.RefOps
open Idealize.ShloMosaic Idealize.ShloMosaic.TcCoe Idealize.SL.Sem

variable (m : (ℓ : Loc nD τ sig) → Buf (Elt Ideal) ℓ) (c : Dev nD)

abbrev arg (r : Ref sig .tc) : Buf (Elt Ideal) ((c : Thread nD τ).loc r) := m ((c : Thread nD τ).loc r)

theorem v22_1 : Wd1 m c (Proc.devRef .tc main_v22) = normRef (F := Ideal) (arg m c main_arg1) (arg m c main_arg2) :=
  host0_v22 (Wd0 m c)
theorem v24_1 : Wd1 m c (Proc.devRef .tc main_v24) = dinv2Ref (F := Ideal) (arg m c main_arg2) :=
  host0_v24 (Wd0 m c)
theorem v1_1 : Wd1 m c (Proc.devRef .tc main_v1) = broadcastInDim S128 ![] bcast_S_S128 (constant (F := Ideal) S_ .f32 0x00000000#32) :=
  host0_v1 (Wd0 m c)

/-- What each item leaves alone, and what the first host stretch makes, as one fact to rewrite with. -/
def keeps :=
  And.intro (Wd13_keep m c) <| And.intro (Wd12_keep m c) <| And.intro (Wd11_keep m c) <| And.intro (Wd10_keep m c) <| And.intro (Wd9_keep m c) <| And.intro (Wd8_keep m c) <| And.intro (Wd7_keep m c) <| And.intro (Wd6_keep m c) <| And.intro (Wd5_keep m c) <| And.intro (Wd4_keep m c) <| And.intro (Wd3_keep m c) <| And.intro (Wd2_keep m c) <| And.intro (Wd1_keep m c) <| And.intro (v22_1 m c) <| And.intro (v24_1 m c) <| v1_1 m c

theorem stage_h0 : Wd2 m c (Proc.devRef .tc main_v25) = encRef (F := Ideal) (arg m c main_arg0) (arg m c main_arg4) (arg m c main_arg5) := by
  refine (Wd2_arr m c 3).trans ((arrAt0_3 (Vr1 m) c).trans ?_)
  simp (disch := decide) only [Vr1, keeps m c]

theorem stage_l1 : Wd3 m c (Proc.devRef .tc main_v26) = linRef (F := Ideal) (Wd2 m c (Proc.devRef .tc main_v25)) (arg m c main_arg6) := by
  refine (Wd3_arr m c 3).trans ((arrAt1_3 (Vr2 m) c (by
    show Wd2 m c (Proc.devRef .tc main_v1) = _
    simp (disch := decide) only [keeps m c])).trans ?_)
  simp (disch := decide) only [Vr2, keeps m c]

theorem stage_a1 : Wd4 m c (Proc.devRef .tc main_v39)
    = aggRef (F := Ideal) (Wd3 m c (Proc.devRef .tc main_v26)) (arg m c main_arg1) (arg m c main_arg2) (normRef (F := Ideal) (arg m c main_arg1) (arg m c main_arg2)) := by
  refine (host2_v39 (Wd3 m c)).trans ?_
  simp (disch := decide) only [keeps m c]

theorem stage_h1 : Wd5 m c (Proc.devRef .tc main_v40)
    = fusRef (F := Ideal) (Wd4 m c (Proc.devRef .tc main_v39)) (Wd3 m c (Proc.devRef .tc main_v26)) (dinv2Ref (F := Ideal) (arg m c main_arg2)) (arg m c main_arg7) := by
  refine (Wd5_arr m c 4).trans ((arrAt2_4 (Vr4 m) c).trans ?_)
  simp (disch := decide) only [Vr4, keeps m c]

theorem stage_l2 : Wd6 m c (Proc.devRef .tc main_v41) = linRef (F := Ideal) (Wd5 m c (Proc.devRef .tc main_v40)) (arg m c main_arg8) := by
  refine (Wd6_arr m c 3).trans ((arrAt3_3 (Vr5 m) c (by
    show Wd5 m c (Proc.devRef .tc main_v1) = _
    simp (disch := decide) only [keeps m c])).trans ?_)
  simp (disch := decide) only [Vr5, keeps m c]

theorem stage_a2 : Wd7 m c (Proc.devRef .tc main_v54)
    = aggRef (F := Ideal) (Wd6 m c (Proc.devRef .tc main_v41)) (arg m c main_arg1) (arg m c main_arg2) (normRef (F := Ideal) (arg m c main_arg1) (arg m c main_arg2)) := by
  refine (host4_v54 (Wd6 m c)).trans ?_
  simp (disch := decide) only [keeps m c]

theorem stage_h2 : Wd8 m c (Proc.devRef .tc main_v55)
    = fusRef (F := Ideal) (Wd7 m c (Proc.devRef .tc main_v54)) (Wd6 m c (Proc.devRef .tc main_v41)) (dinv2Ref (F := Ideal) (arg m c main_arg2)) (arg m c main_arg9) := by
  refine (Wd8_arr m c 4).trans ((arrAt4_4 (Vr7 m) c).trans ?_)
  simp (disch := decide) only [Vr7, keeps m c]

theorem stage_l3 : Wd9 m c (Proc.devRef .tc main_v56) = linRef (F := Ideal) (Wd8 m c (Proc.devRef .tc main_v55)) (arg m c main_arg10) := by
  refine (Wd9_arr m c 3).trans ((arrAt5_3 (Vr8 m) c (by
    show Wd8 m c (Proc.devRef .tc main_v1) = _
    simp (disch := decide) only [keeps m c])).trans ?_)
  simp (disch := decide) only [Vr8, keeps m c]

theorem stage_a3 : Wd10 m c (Proc.devRef .tc main_v69)
    = aggRef (F := Ideal) (Wd9 m c (Proc.devRef .tc main_v56)) (arg m c main_arg1) (arg m c main_arg2) (normRef (F := Ideal) (arg m c main_arg1) (arg m c main_arg2)) := by
  refine (host6_v69 (Wd9 m c)).trans ?_
  simp (disch := decide) only [keeps m c]

theorem stage_h3 : Wd11 m c (Proc.devRef .tc main_v70)
    = fusRef (F := Ideal) (Wd10 m c (Proc.devRef .tc main_v69)) (Wd9 m c (Proc.devRef .tc main_v56)) (dinv2Ref (F := Ideal) (arg m c main_arg2)) (arg m c main_arg11) := by
  refine (Wd11_arr m c 4).trans ((arrAt6_4 (Vr10 m) c).trans ?_)
  simp (disch := decide) only [Vr10, keeps m c]

theorem stage_b : Wd12 m c (Proc.devRef .tc main_v71) = batchCol (F := Ideal) (arg m c main_arg3) := by
  refine (host7_v71 (Wd11 m c)).trans ?_
  simp (disch := decide) only [keeps m c]

theorem stage_out : (dat7 (F := Ideal) (Vr12 m) c).arrAt 6 cfg7.N
    = poolRef (F := Ideal) (Wd11 m c (Proc.devRef .tc main_v70)) (batchCol (F := Ideal) (arg m c main_arg3))
        (arg m c main_arg12) (arg m c main_arg13) (arg m c main_arg14) (arg m c main_arg15) := by
  refine (arrAt7_net (Vr12 m) c).trans ?_
  simp (disch := decide) only [Vr12, stage_b m c, keeps m c]

/-- The result array after the run is the reference network of the sixteen argument arrays: the stages, threaded. -/
theorem kernel_value : (dat7 (F := Ideal) (Vr12 m) c).arrAt 6 cfg7.N
    = netRef (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) := by
  rw [stage_out, stage_h3, stage_a3, stage_l3, stage_h2, stage_a2, stage_l2, stage_h1, stage_a1, stage_l1, stage_h0]
  rfl

end Cert.KernelIdeal.Fr

end
-- ==== Proof.lean ====
import proofs.«400973_j32538672234673_1_alg».proof.Defs
import proofs.«400973_j32538672234673_1_alg».proof.Proof.Gen.Kernel
import proofs.«400973_j32538672234673_1_alg».proof.Proof.Gen.KernelIdeal
import proofs.«400973_j32538672234673_1_alg».proof.Proof.Gen.ReferenceIdeal
import proofs.«400973_j32538672234673_1_alg».proof.Proof.Gen.Pre_finite_inputs
import proofs.«400973_j32538672234673_1_alg».proof.Proof.Gen.ReferenceIdeal.Run
import proofs.«400973_j32538672234673_1_alg».proof.Proof.KChain
import proofs.«400973_j32538672234673_1_alg».proof.Proof.Chain
import proofs.«400973_j32538672234673_1_alg».proof.Proof.KVal
import proofs.«400973_j32538672234673_1_alg».proof.Proof.RefNet
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun r h c => Cert.Kernel.Fr.args_kept m c _ (h c)) (Cert.Kernel.Fr.run_all m ρ)
theorem frame_ki : Cert.frame_KernelIdeal := fun m ρ _ =>
  (θ_run Cert.KernelIdeal.defs _ _).mono (fun r h c => Cert.KernelIdeal.Fr.args_kept m c _ (h c)) (Cert.KernelIdeal.Fr.run_all m ρ)
theorem frame_ri : Cert.frame_ReferenceIdeal := fun m ρ _ =>
  (θ_run Cert.ReferenceIdeal.defs _ _).mono (fun _ h c => (h c).2) (Cert.ReferenceIdeal.Value.run (F := Ideal) m ρ)

/-- Both programs end at the network's value of the sixteen arguments: the kernel's result array by the regions' values
    threaded through its run, the reference's because its run's term is that network. -/
theorem algebraic : Cert.algebraic_KernelIdeal_ReferenceIdeal := by
  intro m ρ m' ρ' _ hagree
  refine ⟨_, (θ_run Cert.KernelIdeal.defs _ _).mono (fun _ h c =>
      ⟨(h c _ (Cert.KernelIdeal.Fr.mem_uc Cert.KernelIdeal.main_v72 (by decide))).trans
        ((Cert.KernelIdeal.Fr.Wd13_arr m c 6).trans (Cert.KernelIdeal.Fr.kernel_value m c)),
       Cert.KernelIdeal.Fr.args_kept m c _ (h c)⟩) (Cert.KernelIdeal.Fr.run_all (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.RefOps.res_eq m' c]
  obtain ⟨e0, e1, e2, e3, e4, e5, e6, e7, e8, e9, e10, e11, e12, e13, e14, e15⟩ := hagree c
  dsimp only [Cert.KernelIdeal.Fr.arg]
  rw [e0, e1, e2, e3, e4, e5, e6, e7, e8, e9, e10, e11, e12, e13, e14, e15]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
